-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128x2 : Shape := ⟨2, ![128, 2]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S256x128 .f32) (main_arg3 : FVec F S128x2 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128x2 : Shape := ⟨2, ![128, 2]⟩
abbrev S8192x128 : Shape := ⟨2, ![8192, 128]⟩
abbrev S1024x256 : Shape := ⟨2, ![1024, 256]⟩
abbrev S1024x128 : Shape := ⟨2, ![1024, 128]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩
abbrev S8192x2 : Shape := ⟨2, ![8192, 2]⟩

abbrev nBuf : Space → Nat
  | .hbm => 7
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128x2, .f32⟩
  | .hbm, ⟨4, _⟩ => ⟨S8192x128, .f32⟩
  | .hbm, ⟨5, _⟩ => ⟨S8192x128, .f32⟩
  | .hbm, ⟨6, _⟩ => ⟨S8192x2, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x128, .f32⟩
  | .local _ .vmem, ⟨7, _⟩ => ⟨S1024x128, .f32⟩
  | .local _ .vmem, ⟨8, _⟩ => ⟨S1024x128, .f32⟩
  | .local _ .vmem, ⟨9, _⟩ => ⟨S1024x1, .f32⟩
  | .local _ .vmem, ⟨10, _⟩ => ⟨S1024x1, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x1, .f32⟩
  | .local _ .vmem, ⟨21, _⟩ => ⟨S1024x1, .f32⟩
  | .local _ .vmem, ⟨22, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_23 : BitVec 32 := 0#32
  let v39 : BitVec 1 := Scalar.cmpi .ne v38 c0_i32_23
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_23 : BitVec 32 := 0#32
  let v40 : BitVec 1 := Scalar.cmpi .ne v39 c0_i32_23
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x128 : S1024x1.Broadcasts S1024x128
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  dot_S1024x1024_S1024x128_S1024x128_1_0_0_1_n_n_wf : DotDims.WF S1024x1024 S1024x128 S1024x128 [1] [0] [0] [1] [] []
  dot_S8192x128_S128x2_S8192x2_1_0_0_1_n_n_wf : DotDims.WF S8192x128 S128x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128x2 : Shape := ⟨2, ![128, 2]⟩
abbrev S256x8192 : Shape := ⟨2, ![256, 8192]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S8192x2 : Shape := ⟨2, ![8192, 2]⟩

abbrev nBuf : Space → Nat
  | .hbm => 27
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128x2, .f32⟩
  | .hbm, ⟨4, _⟩ => ⟨S256x8192, .f32⟩
  | .hbm, ⟨5, _⟩ => ⟨S8192x8192, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x256, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x2, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  transposes_S8192x256_S256x8192_1_0 : S8192x256.Transposes [1, 0] S256x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x128 : S_.BroadcastsInDim S8192x128 (![] : Fin 0 → Fin S8192x128.rank)
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x2_S8192x2_1_0_0_1_n_n_wf : DotDims.WF S8192x128 S128x2 S8192x2 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf

class Facts : Prop extends Facts₀ where

variable [Facts]
-- ==== Proof.KI.Cases.lean ====
import proofs.«169444_j60773787238589_1_alg».proof.Proof.Gen.KernelIdeal.Launch
import proofs.«169444_j60773787238589_1_alg».proof.Proof.Gen.KernelIdeal.Skeleton
import proofs.«169444_j60773787238589_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬ t.val % 8 = 7 → cfg0.idle 4 (grid0.coords t) = true := by decide +kernel
theorem noFlush0_4 : ∀ t : Fin cfg0.N, ¬ t.val % 8 = 7 → (cfg0.win 4).flush t = false := by decide +kernel
theorem liveAt0_4 : ∀ t : Fin cfg0.N, t.val % 8 = 7 → cfg0.idle 4 (grid0.coords t) = false := by decide +kernel

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x256 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x256 .f32 := scM0_2.view
abbrev VO0_4 : View sig .tc .vmem S1024x128 .f32 := (Memref.whole cc0_stg4_0 : Memref sig .tc .vmem S1024x128 .f32).view

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬ t.val % 8 = 7 → cfg1.idle 3 (grid1.coords t) = true := by decide +kernel
theorem noFlush1_3 : ∀ t : Fin cfg1.N, ¬ t.val % 8 = 7 → (cfg1.win 3).flush t = false := by decide +kernel
theorem liveAt1_3 : ∀ t : Fin cfg1.N, t.val % 8 = 7 → cfg1.idle 3 (grid1.coords t) = false := by decide +kernel

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view
abbrev VO1_3 : View sig .tc .vmem S1024x128 .f32 := (Memref.whole cc1_stg3_0 : Memref sig .tc .vmem S1024x128 .f32).view

end Cert.KernelIdeal.Hand

end
-- ==== Proof.KI.Run0A.lean ====
/-
  Region 0's body at a point where the key-tile coordinate is 0: the three running quantities are reset, then updated with this tile. What each scratch buffer ends with is left as the
  list of pieces the symbolic run finds, last store first.
-/
import proofs.«169444_j60773787238589_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x256 .f32) (x1 : Vec F S1024x256 .f32) (x2 : Vec F S1024x256 .f32) :
    Σ' (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KI.Run0B.lean ====
/-
  Region 0's body at a point where the key-tile coordinate is neither 0 nor 7: the three running quantities are updated with this tile. What each scratch buffer ends with is left as the
  list of pieces the symbolic run finds, last store first.
-/
import proofs.«169444_j60773787238589_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x256 .f32) (x1 : Vec F S1024x256 .f32) (x2 : Vec F S1024x256 .f32) (xs0 : Vec F S1024x1 .f32) (xs1 : Vec F S1024x1 .f32) (xs2 : Vec F S1024x256 .f32) :
    Σ' (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KI.Run0C.lean ====
/-
  Region 0's body at a point where the key-tile coordinate is 7: the three running quantities are updated with this tile and the output block is stored from them. What each scratch buffer and the output block ends with is left as the
  list of pieces the symbolic run finds, last store first.
-/
import proofs.«169444_j60773787238589_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x256 .f32) (x1 : Vec F S1024x256 .f32) (x2 : Vec F S1024x256 .f32) (x3 : Vec F S256x128 .f32) (xs0 : Vec F S1024x1 .f32) (xs1 : Vec F S1024x1 .f32) (xs2 : Vec F S1024x256 .f32) :
    Σ' (L4 : List (View.Piece (Elt F) S1024x128 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Trip0.lean ====
import proofs.«169444_j60773787238589_1_alg».proof.Proof.KI.Run0A
import proofs.«169444_j60773787238589_1_alg».proof.Proof.KI.Run0B
import proofs.«169444_j60773787238589_1_alg».proof.Proof.KI.Run0C
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The triple carried between key tiles: running row maximum, running denominator, running numerator. -/
abbrev Sc0 : Type := Vec F S1024x1 .f32 × Vec F S1024x1 .f32 × Vec F S1024x256 .f32
/-- The triple at the first key tile: (-inf, 0, 0). -/
def init0 : Sc0 (F := F) := (k0_pay4, k0_pay5, k0_pay6)
/-- One key tile's update of the triple from the query, key and value blocks. -/
def step0 (x0 : Vec F S1024x256 .f32) (x1 : Vec F S1024x256 .f32) (x2 : Vec F S1024x256 .f32) (s : Sc0 (F := F)) : Sc0 (F := F) :=
  (k0_pay2 (k0_pay8 x0 x1 s.1), k0_pay11 x0 x1 s.1 s.1 s.2.1, k0_pay1 (k0_pay12 x0 x1 s.1 s.1 s.2.2 x2))
/-- The output block formed from the triple after the last key tile. -/
def fin0 (s : Sc0 (F := F)) (g : Vec F S256x128 .f32) : Vec F S1024x128 .f32 := k0_pay3 s.2.2 s.2.1 g

variable (c : Dev nD) (i : grid0.Coords)
  (arg2 : Memref sig .tc .vmem S1024x256 .f32) (harg2 : arg2.IsWhole) (arg3 : Memref sig .tc .vmem S1024x256 .f32) (harg3 : arg3.IsWhole)
  (arg4 : Memref sig .tc .vmem S1024x256 .f32) (harg4 : arg4.IsWhole) (arg5 : Memref sig .tc .vmem S256x128 .f32) (harg5 : arg5.IsWhole)
  (arg6 : Memref sig .tc .vmem S1024x128 .f32) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x256 .f32) (harg9 : arg9.IsWhole)

section first
variable (hc0 : cond0_0 i) (hc1 : ¬cond0_1 i) (x0 : Vec F S1024x256 .f32) (x1 : Vec F S1024x256 .f32) (x2 : Vec F S1024x256 .f32)

/-- At a first key tile the stores, read back whole, are one update of the reset triple. -/
theorem pieces0_A :
    View.canon (kernelRun0_A (F := F) c i arg2 harg2 arg3 harg3 arg4 harg4 arg5 harg5 arg6 harg6 arg7 harg7 arg8 harg8 arg9 harg9 hc0 hc1 x0 x1 x2).1 = (step0 x0 x1 x2 (init0 (F := F))).1
    ∧ View.canon (kernelRun0_A (F := F) c i arg2 harg2 arg3 harg3 arg4 harg4 arg5 harg5 arg6 harg6 arg7 harg7 arg8 harg8 arg9 harg9 hc0 hc1 x0 x1 x2).2.1 = (step0 x0 x1 x2 (init0 (F := F))).2.1
    ∧ View.canon (kernelRun0_A (F := F) c i arg2 harg2 arg3 harg3 arg4 harg4 arg5 harg5 arg6 harg6 arg7 harg7 arg8 harg8 arg9 harg9 hc0 hc1 x0 x1 x2).2.2.1 = (step0 x0 x1 x2 (init0 (F := F))).2.2 := by
  unfold kernelRun0_A step0 init0
  dsimp only
  sl_unfold_words
  refine ⟨?_, ?_, ?_⟩ <;> simp only [View.readAt_eq_ld, harg2.read_unread, harg3.read_unread, harg4.read_unread, harg5.read_unread, harg7.read_unread, harg8.read_unread, harg9.read_unread, View.canon_unit_zero (S := S1024x256) hz2, View.canon_cons_unit_zero (S := S1024x256) hz2, View.ld_unit_zero (S := S1024x256) hz2, View.readCov_unit_zero (S := S1024x256) _ hz2, View.canon_unit_zero (S := S256x128) hz2, View.canon_cons_unit_zero (S := S256x128) hz2, View.ld_unit_zero (S := S256x128) hz2, View.readCov_unit_zero (S := S256x128) _ hz2, View.canon_unit_zero (S := S1024x128) hz2, View.canon_cons_unit_zero (S := S1024x128) hz2, View.ld_unit_zero (S := S1024x128) hz2, View.readCov_unit_zero (S := S1024x128) _ hz2, View.canon_unit_zero (S := S1024x1) hz2, View.canon_cons_unit_zero (S := S1024x1) hz2, View.ld_unit_zero (S := S1024x1) hz2, View.readCov_unit_zero (S := S1024x1) _ hz2]

include hc0 hc1 in
theorem run0_A (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg7 fullShare (step0 x0 x1 x2 (init0 (F := F))).1 ∗ owns (c : Thread nD τ) arg8 fullShare (step0 x0 x1 x2 (init0 (F := F))).2.1 ∗ owns (c : Thread nD τ) arg9 fullShare (step0 x0 x1 x2 (init0 (F := F))).2.2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9) K := by
  have hp := pieces0_A c i arg2 harg2 arg3 harg3 arg4 harg4 arg5 harg5 arg6 harg6 arg7 harg7 arg8 harg8 arg9 harg9 hc0 hc1 x0 x1 x2
  iintro ⟨H0, H1, H2, HS0, HS1, HS2, Hk⟩
  iapply ((kernelRun0_A (F := F) c i arg2 harg2 arg3 harg3 arg4 harg4 arg5 harg5 arg6 harg6 arg7 harg7 arg8 harg8 arg9 harg9 hc0 hc1 x0 x1 x2).2.2.2 E K)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, ⟨%es0, HS0⟩, ⟨%es1, HS1⟩, ⟨%es2, HS2⟩⟩
  iapply Hk
  isplitl [H0]; · iexact H0
  isplitl [H1]; · iexact H1
  isplitl [H2]; · iexact H2
  isplitl [HS0]
  · unfold owns; iexists _; isplitr
    swap; · iexact HS0
    ipureintro; exact (View.read_writes_eq_canon _ _ _ (View.cover_of_tiledL _ S1024x1.size (by sl_kernel_rfl))).trans hp.1
  isplitl [HS1]
  · unfold owns; iexists _; isplitr
    swap; · iexact HS1
    ipureintro; exact (View.read_writes_eq_canon _ _ _ (View.cover_of_tiledL _ S1024x1.size (by sl_kernel_rfl))).trans hp.2.1
  unfold owns; iexists _; isplitr
  swap; · iexact HS2
  ipureintro; exact (View.read_writes_eq_canon _ _ _ (View.cover_of_tiledL _ S1024x256.size (by sl_kernel_rfl))).trans hp.2.2

end first

section middle
variable (hc0 : ¬cond0_0 i) (hc1 : ¬cond0_1 i) (x0 : Vec F S1024x256 .f32) (x1 : Vec F S1024x256 .f32) (x2 : Vec F S1024x256 .f32)
  (xs0 : Vec F S1024x1 .f32) (xs1 : Vec F S1024x1 .f32) (xs2 : Vec F S1024x256 .f32)

/-- At a middle key tile the stores, read back whole, are one update of the triple found. -/
theorem pieces0_B :
    View.canon (kernelRun0_B (F := F) c i arg2 harg2 arg3 harg3 arg4 harg4 arg5 harg5 arg6 harg6 arg7 harg7 arg8 harg8 arg9 harg9 hc0 hc1 x0 x1 x2 xs0 xs1 xs2).1 = (step0 x0 x1 x2 (xs0, xs1, xs2)).1
    ∧ View.canon (kernelRun0_B (F := F) c i arg2 harg2 arg3 harg3 arg4 harg4 arg5 harg5 arg6 harg6 arg7 harg7 arg8 harg8 arg9 harg9 hc0 hc1 x0 x1 x2 xs0 xs1 xs2).2.1 = (step0 x0 x1 x2 (xs0, xs1, xs2)).2.1
    ∧ View.canon (kernelRun0_B (F := F) c i arg2 harg2 arg3 harg3 arg4 harg4 arg5 harg5 arg6 harg6 arg7 harg7 arg8 harg8 arg9 harg9 hc0 hc1 x0 x1 x2 xs0 xs1 xs2).2.2.1 = (step0 x0 x1 x2 (xs0, xs1, xs2)).2.2 := by
  unfold kernelRun0_B step0
  dsimp only
  sl_unfold_words
  refine ⟨?_, ?_, ?_⟩ <;> simp only [View.readAt_eq_ld, harg2.read_unread, harg3.read_unread, harg4.read_unread, harg5.read_unread, harg7.read_unread, harg8.read_unread, harg9.read_unread, View.canon_unit_zero (S := S1024x256) hz2, View.canon_cons_unit_zero (S := S1024x256) hz2, View.ld_unit_zero (S := S1024x256) hz2, View.readCov_unit_zero (S := S1024x256) _ hz2, View.canon_unit_zero (S := S256x128) hz2, View.canon_cons_unit_zero (S := S256x128) hz2, View.ld_unit_zero (S := S256x128) hz2, View.readCov_unit_zero (S := S256x128) _ hz2, View.canon_unit_zero (S := S1024x128) hz2, View.canon_cons_unit_zero (S := S1024x128) hz2, View.ld_unit_zero (S := S1024x128) hz2, View.readCov_unit_zero (S := S1024x128) _ hz2, View.canon_unit_zero (S := S1024x1) hz2, View.canon_cons_unit_zero (S := S1024x1) hz2, View.ld_unit_zero (S := S1024x1) hz2, View.readCov_unit_zero (S := S1024x1) _ hz2]

include hc0 hc1 in
theorem run0_B (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg7 fullShare xs0 ∗ owns (c : Thread nD τ) arg8 fullShare xs1 ∗ owns (c : Thread nD τ) arg9 fullShare xs2
        ∗ (iprop(owns (c : Thread nD τ) arg2 fullShare x0 ∗ owns (c : Thread nD τ) arg3 fullShare x1 ∗ owns (c : Thread nD τ) arg4 fullShare x2 ∗ owns (c : Thread nD τ) arg7 fullShare (step0 x0 x1 x2 (xs0, xs1, xs2)).1 ∗ owns (c : Thread nD τ) arg8 fullShare (step0 x0 x1 x2 (xs0, xs1, xs2)).2.1 ∗ owns (c : Thread nD τ) arg9 fullShare (step0 x0 x1 x2 (xs0, xs1, xs2)).2.2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9) K := by
  have hp := pieces0_B c i arg2 harg2 arg3 harg3 arg4 harg4 arg5 harg5 arg6 harg6 arg7 harg7 arg8 harg8 arg9 harg9 hc0 hc1 x0 x1 x2 xs0 xs1 xs2
  iintro ⟨H0, H1, H2, HS0, HS1, HS2, Hk⟩
  iapply ((kernelRun0_B (F := F) c i arg2 harg2 arg3 harg3 arg4 harg4 arg5 harg5 arg6 harg6 arg7 harg7 arg8 harg8 arg9 harg9 hc0 hc1 x0 x1 x2 xs0 xs1 xs2).2.2.2 E K)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, ⟨%es0, HS0⟩, ⟨%es1, HS1⟩, ⟨%es2, HS2⟩⟩
  iapply Hk
  isplitl [H0]; · iexact H0
  isplitl [H1]; · iexact H1
  isplitl [H2]; · iexact H2
  isplitl [HS0]
  · unfold owns; iexists _; isplitr
    swap; · iexact HS0
    ipureintro; exact (View.read_writes_eq_canon _ _ _ (View.cover_of_tiledL _ S1024x1.size (by sl_kernel_rfl))).trans hp.1
  isplitl [HS1]
  · unfold owns; iexists _; isplitr
    swap; · iexact HS1
    ipureintro; exact (View.read_writes_eq_canon _ _ _ (View.cover_of_tiledL _ S1024x1.size (by sl_kernel_rfl))).trans hp.2.1
  unfold owns; iexists _; isplitr
  swap; · iexact HS2
  ipureintro; exact (View.read_writes_eq_canon _ _ _ (View.cover_of_tiledL _ S1024x256.size (by sl_kernel_rfl))).trans hp.2.2

end middle

section last
variable (hc0 : ¬cond0_0 i) (hc1 : cond0_1 i) (x0 : Vec F S1024x256 .f32) (x1 : Vec F S1024x256 .f32) (x2 : Vec F S1024x256 .f32)
  (x3 : Vec F S256x128 .f32) (xs0 : Vec F S1024x1 .f32) (xs1 : Vec F S1024x1 .f32) (xs2 : Vec F S1024x256 .f32)

/-- At a last key tile the stores, read back whole, are the output block formed from the updated triple, and that triple. -/
theorem pieces0_C :
    View.canon (kernelRun0_C (F := F) c i arg2 harg2 arg3 harg3 arg4 harg4 arg5 harg5 arg6 harg6 arg7 harg7 arg8 harg8 arg9 harg9 hc0 hc1 x0 x1 x2 x3 xs0 xs1 xs2).1 = fin0 (step0 x0 x1 x2 (xs0, xs1, xs2)) x3
    ∧ View.canon (kernelRun0_C (F := F) c i arg2 harg2 arg3 harg3 arg4 harg4 arg5 harg5 arg6 harg6 arg7 harg7 arg8 harg8 arg9 harg9 hc0 hc1 x0 x1 x2 x3 xs0 xs1 xs2).2.1 = (step0 x0 x1 x2 (xs0, xs1, xs2)).1
    ∧ View.canon (kernelRun0_C (F := F) c i arg2 harg2 arg3 harg3 arg4 harg4 arg5 harg5 arg6 harg6 arg7 harg7 arg8 harg8 arg9 harg9 hc0 hc1 x0 x1 x2 x3 xs0 xs1 xs2).2.2.1 = (step0 x0 x1 x2 (xs0, xs1, xs2)).2.1
    ∧ View.canon (kernelRun0_C (F := F) c i arg2 harg2 arg3 harg3 arg4 harg4 arg5 harg5 arg6 harg6 arg7 harg7 arg8 harg8 arg9 harg9 hc0 hc1 x0 x1 x2 x3 xs0 xs1 xs2).2.2.2.1 = (step0 x0 x1 x2 (xs0, xs1, xs2)).2.2 := by
  unfold kernelRun0_C step0 fin0
  dsimp only
  sl_unfold_words
  refine ⟨?_, ?_, ?_, ?_⟩ <;> simp only [View.readAt_eq_ld, harg2.read_unread, harg3.read_unread, harg4.read_unread, harg5.read_unread, harg7.read_unread, harg8.read_unread, harg9.read_unread, View.canon_unit_zero (S := S1024x256) hz2, View.canon_cons_unit_zero (S := S1024x256) hz2, View.ld_unit_zero (S := S1024x256) hz2, View.readCov_unit_zero (S := S1024x256) _ hz2, View.canon_unit_zero (S := S256x128) hz2, View.canon_cons_unit_zero (S := S256x128) hz2, View.ld_unit_zero (S := S256x128) hz2, View.readCov_unit_zero (S := S256x128) _ hz2, View.canon_unit_zero (S := S1024x128) hz2, View.canon_cons_unit_zero (S := S1024x128) hz2, View.ld_unit_zero (S := S1024x128) hz2, View.readCov_unit_zero (S := S1024x128) _ hz2, View.canon_unit_zero (S := S1024x1) hz2, View.canon_cons_unit_zero (S := S1024x1) hz2, View.ld_unit_zero (S := S1024x1) hz2, View.readCov_unit_zero (S := S1024x1) _ hz2]

include hc0 hc1 in
theorem run0_C (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (fin0 (step0 x0 x1 x2 (xs0, xs1, xs2)) x3) ∗ owns (c : Thread nD τ) arg7 fullShare (step0 x0 x1 x2 (xs0, xs1, xs2)).1 ∗ owns (c : Thread nD τ) arg8 fullShare (step0 x0 x1 x2 (xs0, xs1, xs2)).2.1 ∗ owns (c : Thread nD τ) arg9 fullShare (step0 x0 x1 x2 (xs0, xs1, xs2)).2.2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9) K := by
  have hp := pieces0_C c i arg2 harg2 arg3 harg3 arg4 harg4 arg5 harg5 arg6 harg6 arg7 harg7 arg8 harg8 arg9 harg9 hc0 hc1 x0 x1 x2 x3 xs0 xs1 xs2
  iintro ⟨H0, H1, H2, H3, H4, HS0, HS1, HS2, Hk⟩
  iapply ((kernelRun0_C (F := F) c i arg2 harg2 arg3 harg3 arg4 harg4 arg5 harg5 arg6 harg6 arg7 harg7 arg8 harg8 arg9 harg9 hc0 hc1 x0 x1 x2 x3 xs0 xs1 xs2).2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, ⟨%e4, H4⟩, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (View.cover_of_tiledL _ S1024x128.size (by sl_kernel_rfl))).trans hp.1
  isplitl [HS0]
  · unfold owns; iexists _; isplitr
    swap; · iexact HS0
    ipureintro; exact (View.read_writes_eq_canon _ _ _ (View.cover_of_tiledL _ S1024x1.size (by sl_kernel_rfl))).trans hp.2.1
  isplitl [HS1]
  · unfold owns; iexists _; isplitr
    swap; · iexact HS1
    ipureintro; exact (View.read_writes_eq_canon _ _ _ (View.cover_of_tiledL _ S1024x1.size (by sl_kernel_rfl))).trans hp.2.2.1
  unfold owns; iexists _; isplitr
  swap; · iexact HS2
  ipureintro; exact (View.read_writes_eq_canon _ _ _ (View.cover_of_tiledL _ S1024x256.size (by sl_kernel_rfl))).trans hp.2.2.2

end last

end Cert.KernelIdeal.Hand

end
-- ==== Proof.KI.Outs0.lean ====
/-
  Region 0's proof data. With `V` the buffer contents when the region is entered, `iblk0` is a window's block at a
  grid point read off its array; `scAt0` is the carried triple (running row maximum, denominator, numerator) after each
  point, by recursion on the point: at the first key tile of a query tile (t % 8 = 0) one update of the reset triple,
  otherwise one update of what the point before left. The output block is written at the last key tile only
  (t % 8 = 7), from that point's triple. The query, key and value windows read ONE array, so each holds a share of it.
-/
import proofs.«169444_j60773787238589_1_alg».proof.Proof.KI.Trip0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point's query, key and value blocks and the weight block, at their literal types. -/
abbrev qb0 (c : Dev nD) (t : Fin cfg0.N) : Vec F S1024x256 .f32 := iblk0 V c 0 t
abbrev kb0 (c : Dev nD) (t : Fin cfg0.N) : Vec F S1024x256 .f32 := iblk0 V c 1 t
abbrev vb0 (c : Dev nD) (t : Fin cfg0.N) : Vec F S1024x256 .f32 := iblk0 V c 2 t
abbrev gb0 (c : Dev nD) (t : Fin cfg0.N) : Vec F S256x128 .f32 := iblk0 V c 3 t

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The carried triple after point `n`. -/
def scAt0 (c : Dev nD) : (n : ℕ) → n < cfg0.N → Sc0 (F := F)
  | 0, hn => step0 (qb0 V c ⟨0, hn⟩) (kb0 V c ⟨0, hn⟩) (vb0 V c ⟨0, hn⟩) (init0 (F := F))
  | n + 1, hn =>
    if (n + 1) % 8 = 0 then step0 (qb0 V c ⟨n + 1, hn⟩) (kb0 V c ⟨n + 1, hn⟩) (vb0 V c ⟨n + 1, hn⟩) (init0 (F := F))
    else step0 (qb0 V c ⟨n + 1, hn⟩) (kb0 V c ⟨n + 1, hn⟩) (vb0 V c ⟨n + 1, hn⟩) (scAt0 c n (Nat.lt_of_succ_lt hn))

theorem scAt0_reset (c : Dev nD) (t : Fin cfg0.N) (h : t.val % 8 = 0) :
    scAt0 V c t.val t.isLt = step0 (qb0 V c t) (kb0 V c t) (vb0 V c t) (init0 (F := F)) := by
  obtain ⟨n, hn⟩ := t
  cases n with
  | zero => rfl
  | succ n => exact if_pos h

theorem scAt0_step (c : Dev nD) (t : Fin cfg0.N) (h : ¬ t.val % 8 = 0) :
    scAt0 V c t.val t.isLt = step0 (qb0 V c t) (kb0 V c t) (vb0 V c t) (scAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The core's scoped buffers that belong to the other region, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

theorem PhiA0_split (c : Dev nD) : (Pipeline.ΦA spec0 c : sProp 𝕄) ⊢ iprop((∃ d, owns (c : Thread nD τ) scM0_0 fullShare d) ∗ (∃ d, owns (c : Thread nD τ) scM0_1 fullShare d) ∗ (∃ d, owns (c : Thread nD τ) scM0_2 fullShare d) ∗ rest0 (F := F) c ∗ ∃ r, prngReg c r) := by
  unfold Pipeline.ΦA rest0; rw [scopedRest0_eq]; simp only [scM0_0, scM0_1, scM0_2, owns_whole]
  iintro ⟨⟨S0, S1, S2, R0, R1, R2, R3, R4, R5, R6, R7, R8, R9, R10⟩, Hg⟩
  isplitl [S0]; · iexact S0
  isplitl [S1]; · iexact S1
  isplitl [S2]; · iexact S2
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexact Hg

theorem PhiA0_join (c : Dev nD) : iprop((∃ d, owns (c : Thread nD τ) scM0_0 fullShare d) ∗ (∃ d, owns (c : Thread nD τ) scM0_1 fullShare d) ∗ (∃ d, owns (c : Thread nD τ) scM0_2 fullShare d) ∗ rest0 (F := F) c ∗ ∃ r, prngReg c r) ⊢ (Pipeline.ΦA spec0 c : sProp 𝕄) := by
  unfold Pipeline.ΦA rest0; rw [scopedRest0_eq]; simp only [scM0_0, scM0_1, scM0_2, owns_whole]
  iintro ⟨S0, S1, S2, ⟨R0, R1, R2, R3, R4, R5, R6, R7, R8, R9, R10⟩, Hg⟩
  isplitr [Hg]
  · isplitl [S0]; · iexact S0
    isplitl [S1]; · iexact S1
    isplitl [S2]; · iexact S2
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexact Hg

/-- The invariant before point `n`: before the first, every scratch at anything; afterwards the three scratch buffers at
    the triple the point before left. -/
def PhiS0 (c : Dev nD) : (n : ℕ) → n ≤ cfg0.N → sProp 𝕄
  | 0, _ => Pipeline.ΦA spec0 c
  | n + 1, hn => iprop(owns (c : Thread nD τ) scM0_0 fullShare (scAt0 V c n hn).1 ∗ owns (c : Thread nD τ) scM0_1 fullShare (scAt0 V c n hn).2.1
      ∗ owns (c : Thread nD τ) scM0_2 fullShare (scAt0 V c n hn).2.2 ∗ rest0 (F := F) c ∗ ∃ r, prngReg c r)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (scAt0 V c n hn).1 ∗ owns (c : Thread nD τ) scM0_1 fullShare (scAt0 V c n hn).2.1
      ∗ owns (c : Thread nD τ) scM0_2 fullShare (scAt0 V c n hn).2.2 ∗ rest0 (F := F) c ∗ ∃ r, prngReg c r) := rfl
theorem PhiS0_pos (c : Dev nD) (n : ℕ) (h : n ≤ cfg0.N) (hz : n ≠ 0) :
    PhiS0 V c n h = iprop(owns (c : Thread nD τ) scM0_0 fullShare (scAt0 V c (n - 1) (by omega)).1 ∗ owns (c : Thread nD τ) scM0_1 fullShare (scAt0 V c (n - 1) (by omega)).2.1
      ∗ owns (c : Thread nD τ) scM0_2 fullShare (scAt0 V c (n - 1) (by omega)).2.2 ∗ rest0 (F := F) c ∗ ∃ r, prngReg c r) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => fin0 (scAt0 V c t.val t.isLt) (gb0 V c t)
  Φ t := PhiS0 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
/-- What the output window's staging buffer holds after a closing point: the quotient formed from that point's triple. -/
theorem after0_4 (c : Dev nD) (t : Fin cfg0.N) : (dat0 V c).after 4 t = fin0 (scAt0 V c t.val t.isLt) (gb0 V c t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point: which of the three cases the point is in is read off t % 8; the invariant hands the body the
    three scratch buffers at the triple the point before left (at anything before the first point) and takes them back at
    this point's triple; away from the closing points the output window's buffer passes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 64 := lt_of_lt_of_eq t.isLt N_0
  by_cases h0 : t.val % 8 = 0
  · have h7 : ¬ t.val % 8 = 7 := by omega
    rw [Dat.leavesExact_idle (dat0 V c) 4 t (idleAt0_4 t h7) (noFlush0_4 t h7), scAt0_reset V c t h0]
    have hc0 : cond0_0 (grid0.coords t) := (hcond0_0 t).mpr h0
    have hc1 : ¬ cond0_1 (grid0.coords t) := fun h => h7 ((hcond0_1 t).mp h)
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, H4o⟩
      ihave HΦ' := (PhiA0_split (F := F) c) $$ HΦ
      icases HΦ' with ⟨HS0, HS1, HS2, Hr, Hg⟩
      iapply (run0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (qb0 V c t) (kb0 V c t) (vb0 V c t) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      isplitl [H3]; · iexact H3
      iexact H4o
    · rw [PhiS0_castSucc V c t, PhiS0_pos V c _ _ hz]
      iintro ⟨⟨HS0, HS1, HS2, Hr, Hg⟩, Ho, ⟨%d0, H0⟩, ⟨%d1, H1⟩, ⟨%d2, H2⟩, ⟨%d3, H3⟩, H4o⟩
      iapply (run0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (qb0 V c t) (kb0 V c t) (vb0 V c t) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      isplitl [H3]; · iexact H3
      iexact H4o
  · have hz : t.val ≠ 0 := fun h => h0 (by rw [h])
    have hc0 : ¬ cond0_0 (grid0.coords t) := fun h => h0 ((hcond0_0 t).mp h)
    rw [PhiS0_castSucc V c t, PhiS0_pos V c _ _ hz, scAt0_step V c t h0]
    by_cases h7 : t.val % 8 = 7
    · have hc1 : cond0_1 (grid0.coords t) := (hcond0_1 t).mpr h7
      rw [show (dat0 V c).leavesExact 4 t = owns (c : Thread nD τ) (ms0_4 t) fullShare ((dat0 V c).after 4 t) from by
        unfold Dat.leavesExact; rw [liveAt0_4 t h7], after0_4, scAt0_step V c t h0]
      iintro ⟨⟨HS0, HS1, HS2, Hr, Hg⟩, Ho, ⟨%d0, H0⟩, ⟨%d1, H1⟩, ⟨%d2, H2⟩, ⟨%d3, H3⟩, ⟨%d4, H4o⟩⟩
      iapply (run0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (qb0 V c t) (kb0 V c t) (vb0 V c t) (gb0 V c t) _ _ _ Set.univ _)
      isplitl [H0]; · iexact H0
      isplitl [H1]; · iexact H1
      isplitl [H2]; · iexact H2
      isplitl [H3]; · iexact H3
      isplitl [H4o]; · iexists _; iexact H4o
      isplitl [HS0]; · iexact HS0
      isplitl [HS1]; · iexact HS1
      isplitl [HS2]; · iexact HS2
      iintro ⟨H0, H1, H2, H3, H4o, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      isplitl [H3]; · iexact H3
      iexact H4o
    · have hc1 : ¬ cond0_1 (grid0.coords t) := fun h => h7 ((hcond0_1 t).mp h)
      rw [Dat.leavesExact_idle (dat0 V c) 4 t (idleAt0_4 t h7) (noFlush0_4 t h7)]
      iintro ⟨⟨HS0, HS1, HS2, Hr, Hg⟩, Ho, ⟨%d0, H0⟩, ⟨%d1, H1⟩, ⟨%d2, H2⟩, ⟨%d3, H3⟩, H4o⟩
      iapply (run0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (qb0 V c t) (kb0 V c t) (vb0 V c t) _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      isplitl [H3]; · iexact H3
      iexact H4o

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scratch buffers back at some contents. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ hne]
  refine BIBase.Entails.trans ?_ (PhiA0_join (F := F) c)
  iintro ⟨HS0, HS1, HS2, Hr, Hg⟩
  isplitl [HS0]; · iexists _; iexact HS0
  isplitl [HS1]; · iexists _; iexact HS1
  isplitl [HS2]; · iexists _; iexact HS2
  isplitl [Hr]; · iexact Hr
  iexact Hg

end Cert.KernelIdeal.Hand

end
-- ==== Proof.KI.Run1A.lean ====
/-
  Region 1's body at a point where the key-tile coordinate is 0: the three running quantities are reset, then updated with this tile. What each scratch buffer ends with is left as the
  list of pieces the symbolic run finds, last store first.
-/
import proofs.«169444_j60773787238589_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (hc0 : cond1_0 i) (hc1 : ¬cond1_1 i)
    (x0 : Vec F S1024x256 .f32) (x1 : Vec F S1024x256 .f32) (x2 : Vec F S1024x128 .f32) :
    Σ' (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__pass2_kernel i arg2 harg2 arg3 harg3 arg4 harg4 arg5 harg5 arg6 harg6 arg7 harg7 arg8 harg8) K } := by
  refine ⟨?_, ?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KI.Run1B.lean ====
/-
  Region 1's body at a point where the key-tile coordinate is neither 0 nor 7: the three running quantities are updated with this tile. What each scratch buffer ends with is left as the
  list of pieces the symbolic run finds, last store first.
-/
import proofs.«169444_j60773787238589_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (hc0 : ¬cond1_0 i) (hc1 : ¬cond1_1 i)
    (x0 : Vec F S1024x256 .f32) (x1 : Vec F S1024x256 .f32) (x2 : Vec F S1024x128 .f32) (xs0 : Vec F S1024x1 .f32) (xs1 : Vec F S1024x1 .f32) (xs2 : Vec F S1024x128 .f32) :
    Σ' (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__pass2_kernel i arg2 harg2 arg3 harg3 arg4 harg4 arg5 harg5 arg6 harg6 arg7 harg7 arg8 harg8) K } := by
  refine ⟨?_, ?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KI.Run1C.lean ====
/-
  Region 1's body at a point where the key-tile coordinate is 7: the three running quantities are updated with this tile and the output block is stored from them. What each scratch buffer and the output block ends with is left as the
  list of pieces the symbolic run finds, last store first.
-/
import proofs.«169444_j60773787238589_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x128 .f32) (harg8 : arg8.IsWhole) (hc0 : ¬cond1_0 i) (hc1 : cond1_1 i)
    (x0 : Vec F S1024x256 .f32) (x1 : Vec F S1024x256 .f32) (x2 : Vec F S1024x128 .f32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__pass2_kernel i arg2 harg2 arg3 harg3 arg4 harg4 arg5 harg5 arg6 harg6 arg7 harg7 arg8 harg8) K } := by
  refine ⟨?_, ?_, ?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]; · iexists _; iexact H4
    isplitl [HS0]; · iexists _; iexact HS0
    isplitl [HS1]; · iexists _; iexact HS1
    iexists _; iexact HS2

end Cert.KernelIdeal.Hand

end
-- ==== Proof.KI.Trip1.lean ====
import proofs.«169444_j60773787238589_1_alg».proof.Proof.KI.Run1A
import proofs.«169444_j60773787238589_1_alg».proof.Proof.KI.Run1B
import proofs.«169444_j60773787238589_1_alg».proof.Proof.KI.Run1C
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The second pass's carried triple, with a value column of the hidden array in the numerator. -/
abbrev Sc1 : Type := Vec F S1024x1 .f32 × Vec F S1024x1 .f32 × Vec F S1024x128 .f32
def init1 : Sc1 (F := F) := (k1_pay4, k1_pay5, k1_pay6)
def step1 (x0 : Vec F S1024x256 .f32) (x1 : Vec F S1024x256 .f32) (x2 : Vec F S1024x128 .f32) (s : Sc1 (F := F)) : Sc1 (F := F) :=
  (k1_pay2 (k1_pay8 x0 x1 s.1), k1_pay11 x0 x1 s.1 s.1 s.2.1, k1_pay1 (k1_pay12 x0 x1 s.1 s.1 s.2.2 x2))
/-- The second pass closes with the quotient alone. -/
def fin1 (s : Sc1 (F := F)) : Vec F S1024x128 .f32 := k1_pay3 s.2.2 s.2.1

variable (c : Dev nD) (i : grid1.Coords)
  (arg2 : Memref sig .tc .vmem S1024x256 .f32) (harg2 : arg2.IsWhole) (arg3 : Memref sig .tc .vmem S1024x256 .f32) (harg3 : arg3.IsWhole)
  (arg4 : Memref sig .tc .vmem S1024x128 .f32) (harg4 : arg4.IsWhole) (arg5 : Memref sig .tc .vmem S1024x128 .f32) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x128 .f32) (harg8 : arg8.IsWhole)

section first
variable (hc0 : cond1_0 i) (hc1 : ¬cond1_1 i) (x0 : Vec F S1024x256 .f32) (x1 : Vec F S1024x256 .f32) (x2 : Vec F S1024x128 .f32)

theorem pieces1_A :
    View.canon (kernelRun1_A (F := F) c i arg2 harg2 arg3 harg3 arg4 harg4 arg5 harg5 arg6 harg6 arg7 harg7 arg8 harg8 hc0 hc1 x0 x1 x2).1 = (step1 x0 x1 x2 (init1 (F := F))).1
    ∧ View.canon (kernelRun1_A (F := F) c i arg2 harg2 arg3 harg3 arg4 harg4 arg5 harg5 arg6 harg6 arg7 harg7 arg8 harg8 hc0 hc1 x0 x1 x2).2.1 = (step1 x0 x1 x2 (init1 (F := F))).2.1
    ∧ View.canon (kernelRun1_A (F := F) c i arg2 harg2 arg3 harg3 arg4 harg4 arg5 harg5 arg6 harg6 arg7 harg7 arg8 harg8 hc0 hc1 x0 x1 x2).2.2.1 = (step1 x0 x1 x2 (init1 (F := F))).2.2 := by
  unfold kernelRun1_A step1 init1
  dsimp only
  sl_unfold_words
  refine ⟨?_, ?_, ?_⟩ <;> simp only [View.readAt_eq_ld, harg2.read_unread, harg3.read_unread, harg4.read_unread, harg6.read_unread, harg7.read_unread, harg8.read_unread, View.canon_unit_zero (S := S1024x256) hz2, View.canon_cons_unit_zero (S := S1024x256) hz2, View.ld_unit_zero (S := S1024x256) hz2, View.readCov_unit_zero (S := S1024x256) _ hz2, View.canon_unit_zero (S := S1024x128) hz2, View.canon_cons_unit_zero (S := S1024x128) hz2, View.ld_unit_zero (S := S1024x128) hz2, View.readCov_unit_zero (S := S1024x128) _ hz2, View.canon_unit_zero (S := S1024x1) hz2, View.canon_cons_unit_zero (S := S1024x1) hz2, View.ld_unit_zero (S := S1024x1) hz2, View.readCov_unit_zero (S := S1024x1) _ hz2]

include hc0 hc1 in
theorem run1_A (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg6 fullShare (step1 x0 x1 x2 (init1 (F := F))).1 ∗ owns (c : Thread nD τ) arg7 fullShare (step1 x0 x1 x2 (init1 (F := F))).2.1 ∗ owns (c : Thread nD τ) arg8 fullShare (step1 x0 x1 x2 (init1 (F := F))).2.2) -∗ K ⟨⟩))
      ⊢ wp frame (wpE (defs₀ (F := F)) Variants.none c none) E (cc1__pass2_kernel i arg2 harg2 arg3 harg3 arg4 harg4 arg5 harg5 arg6 harg6 arg7 harg7 arg8 harg8) K := by
  have hp := pieces1_A c i arg2 harg2 arg3 harg3 arg4 harg4 arg5 harg5 arg6 harg6 arg7 harg7 arg8 harg8 hc0 hc1 x0 x1 x2
  iintro ⟨H0, H1, H2, HS0, HS1, HS2, Hk⟩
  iapply ((kernelRun1_A (F := F) c i arg2 harg2 arg3 harg3 arg4 harg4 arg5 harg5 arg6 harg6 arg7 harg7 arg8 harg8 hc0 hc1 x0 x1 x2).2.2.2 E K)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, ⟨%es0, HS0⟩, ⟨%es1, HS1⟩, ⟨%es2, HS2⟩⟩
  iapply Hk
  isplitl [H0]; · iexact H0
  isplitl [H1]; · iexact H1
  isplitl [H2]; · iexact H2
  isplitl [HS0]
  · unfold owns; iexists _; isplitr
    swap; · iexact HS0
    ipureintro; exact (View.read_writes_eq_canon _ _ _ (View.cover_of_tiledL _ S1024x1.size (by sl_kernel_rfl))).trans hp.1
  isplitl [HS1]
  · unfold owns; iexists _; isplitr
    swap; · iexact HS1
    ipureintro; exact (View.read_writes_eq_canon _ _ _ (View.cover_of_tiledL _ S1024x1.size (by sl_kernel_rfl))).trans hp.2.1
  unfold owns; iexists _; isplitr
  swap; · iexact HS2
  ipureintro; exact (View.read_writes_eq_canon _ _ _ (View.cover_of_tiledL _ S1024x128.size (by sl_kernel_rfl))).trans hp.2.2

end first

section middle
variable (hc0 : ¬cond1_0 i) (hc1 : ¬cond1_1 i) (x0 : Vec F S1024x256 .f32) (x1 : Vec F S1024x256 .f32) (x2 : Vec F S1024x128 .f32)
  (xs0 : Vec F S1024x1 .f32) (xs1 : Vec F S1024x1 .f32) (xs2 : Vec F S1024x128 .f32)

theorem pieces1_B :
    View.canon (kernelRun1_B (F := F) c i arg2 harg2 arg3 harg3 arg4 harg4 arg5 harg5 arg6 harg6 arg7 harg7 arg8 harg8 hc0 hc1 x0 x1 x2 xs0 xs1 xs2).1 = (step1 x0 x1 x2 (xs0, xs1, xs2)).1
    ∧ View.canon (kernelRun1_B (F := F) c i arg2 harg2 arg3 harg3 arg4 harg4 arg5 harg5 arg6 harg6 arg7 harg7 arg8 harg8 hc0 hc1 x0 x1 x2 xs0 xs1 xs2).2.1 = (step1 x0 x1 x2 (xs0, xs1, xs2)).2.1
    ∧ View.canon (kernelRun1_B (F := F) c i arg2 harg2 arg3 harg3 arg4 harg4 arg5 harg5 arg6 harg6 arg7 harg7 arg8 harg8 hc0 hc1 x0 x1 x2 xs0 xs1 xs2).2.2.1 = (step1 x0 x1 x2 (xs0, xs1, xs2)).2.2 := by
  unfold kernelRun1_B step1
  dsimp only
  sl_unfold_words
  refine ⟨?_, ?_, ?_⟩ <;> simp only [View.readAt_eq_ld, harg2.read_unread, harg3.read_unread, harg4.read_unread, harg6.read_unread, harg7.read_unread, harg8.read_unread, View.canon_unit_zero (S := S1024x256) hz2, View.canon_cons_unit_zero (S := S1024x256) hz2, View.ld_unit_zero (S := S1024x256) hz2, View.readCov_unit_zero (S := S1024x256) _ hz2, View.canon_unit_zero (S := S1024x128) hz2, View.canon_cons_unit_zero (S := S1024x128) hz2, View.ld_unit_zero (S := S1024x128) hz2, View.readCov_unit_zero (S := S1024x128) _ hz2, View.canon_unit_zero (S := S1024x1) hz2, View.canon_cons_unit_zero (S := S1024x1) hz2, View.ld_unit_zero (S := S1024x1) hz2, View.readCov_unit_zero (S := S1024x1) _ hz2]

include hc0 hc1 in
theorem run1_B (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg6 fullShare (step1 x0 x1 x2 (xs0, xs1, xs2)).1 ∗ owns (c : Thread nD τ) arg7 fullShare (step1 x0 x1 x2 (xs0, xs1, xs2)).2.1 ∗ owns (c : Thread nD τ) arg8 fullShare (step1 x0 x1 x2 (xs0, xs1, xs2)).2.2) -∗ K ⟨⟩))
      ⊢ wp frame (wpE (defs₀ (F := F)) Variants.none c none) E (cc1__pass2_kernel i arg2 harg2 arg3 harg3 arg4 harg4 arg5 harg5 arg6 harg6 arg7 harg7 arg8 harg8) K := by
  have hp := pieces1_B c i arg2 harg2 arg3 harg3 arg4 harg4 arg5 harg5 arg6 harg6 arg7 harg7 arg8 harg8 hc0 hc1 x0 x1 x2 xs0 xs1 xs2
  iintro ⟨H0, H1, H2, HS0, HS1, HS2, Hk⟩
  iapply ((kernelRun1_B (F := F) c i arg2 harg2 arg3 harg3 arg4 harg4 arg5 harg5 arg6 harg6 arg7 harg7 arg8 harg8 hc0 hc1 x0 x1 x2 xs0 xs1 xs2).2.2.2 E K)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, ⟨%es0, HS0⟩, ⟨%es1, HS1⟩, ⟨%es2, HS2⟩⟩
  iapply Hk
  isplitl [H0]; · iexact H0
  isplitl [H1]; · iexact H1
  isplitl [H2]; · iexact H2
  isplitl [HS0]
  · unfold owns; iexists _; isplitr
    swap; · iexact HS0
    ipureintro; exact (View.read_writes_eq_canon _ _ _ (View.cover_of_tiledL _ S1024x1.size (by sl_kernel_rfl))).trans hp.1
  isplitl [HS1]
  · unfold owns; iexists _; isplitr
    swap; · iexact HS1
    ipureintro; exact (View.read_writes_eq_canon _ _ _ (View.cover_of_tiledL _ S1024x1.size (by sl_kernel_rfl))).trans hp.2.1
  unfold owns; iexists _; isplitr
  swap; · iexact HS2
  ipureintro; exact (View.read_writes_eq_canon _ _ _ (View.cover_of_tiledL _ S1024x128.size (by sl_kernel_rfl))).trans hp.2.2

end middle

section last
variable (hc0 : ¬cond1_0 i) (hc1 : cond1_1 i) (x0 : Vec F S1024x256 .f32) (x1 : Vec F S1024x256 .f32) (x2 : Vec F S1024x128 .f32)
  (xs0 : Vec F S1024x1 .f32) (xs1 : Vec F S1024x1 .f32) (xs2 : Vec F S1024x128 .f32)

theorem pieces1_C :
    View.canon (kernelRun1_C (F := F) c i arg2 harg2 arg3 harg3 arg4 harg4 arg5 harg5 arg6 harg6 arg7 harg7 arg8 harg8 hc0 hc1 x0 x1 x2 xs0 xs1 xs2).1 = fin1 (step1 x0 x1 x2 (xs0, xs1, xs2))
    ∧ View.canon (kernelRun1_C (F := F) c i arg2 harg2 arg3 harg3 arg4 harg4 arg5 harg5 arg6 harg6 arg7 harg7 arg8 harg8 hc0 hc1 x0 x1 x2 xs0 xs1 xs2).2.1 = (step1 x0 x1 x2 (xs0, xs1, xs2)).1
    ∧ View.canon (kernelRun1_C (F := F) c i arg2 harg2 arg3 harg3 arg4 harg4 arg5 harg5 arg6 harg6 arg7 harg7 arg8 harg8 hc0 hc1 x0 x1 x2 xs0 xs1 xs2).2.2.1 = (step1 x0 x1 x2 (xs0, xs1, xs2)).2.1
    ∧ View.canon (kernelRun1_C (F := F) c i arg2 harg2 arg3 harg3 arg4 harg4 arg5 harg5 arg6 harg6 arg7 harg7 arg8 harg8 hc0 hc1 x0 x1 x2 xs0 xs1 xs2).2.2.2.1 = (step1 x0 x1 x2 (xs0, xs1, xs2)).2.2 := by
  unfold kernelRun1_C step1 fin1
  dsimp only
  sl_unfold_words
  refine ⟨?_, ?_, ?_, ?_⟩ <;> simp only [View.readAt_eq_ld, harg2.read_unread, harg3.read_unread, harg4.read_unread, harg6.read_unread, harg7.read_unread, harg8.read_unread, View.canon_unit_zero (S := S1024x256) hz2, View.canon_cons_unit_zero (S := S1024x256) hz2, View.ld_unit_zero (S := S1024x256) hz2, View.readCov_unit_zero (S := S1024x256) _ hz2, View.canon_unit_zero (S := S1024x128) hz2, View.canon_cons_unit_zero (S := S1024x128) hz2, View.ld_unit_zero (S := S1024x128) hz2, View.readCov_unit_zero (S := S1024x128) _ hz2, View.canon_unit_zero (S := S1024x1) hz2, View.canon_cons_unit_zero (S := S1024x1) hz2, View.ld_unit_zero (S := S1024x1) hz2, View.readCov_unit_zero (S := S1024x1) _ hz2]

include hc0 hc1 in
theorem run1_C (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare (fin1 (step1 x0 x1 x2 (xs0, xs1, xs2))) ∗ owns (c : Thread nD τ) arg6 fullShare (step1 x0 x1 x2 (xs0, xs1, xs2)).1 ∗ owns (c : Thread nD τ) arg7 fullShare (step1 x0 x1 x2 (xs0, xs1, xs2)).2.1 ∗ owns (c : Thread nD τ) arg8 fullShare (step1 x0 x1 x2 (xs0, xs1, xs2)).2.2) -∗ K ⟨⟩))
      ⊢ wp frame (wpE (defs₀ (F := F)) Variants.none c none) E (cc1__pass2_kernel i arg2 harg2 arg3 harg3 arg4 harg4 arg5 harg5 arg6 harg6 arg7 harg7 arg8 harg8) K := by
  have hp := pieces1_C c i arg2 harg2 arg3 harg3 arg4 harg4 arg5 harg5 arg6 harg6 arg7 harg7 arg8 harg8 hc0 hc1 x0 x1 x2 xs0 xs1 xs2
  iintro ⟨H0, H1, H2, H4, HS0, HS1, HS2, Hk⟩
  iapply ((kernelRun1_C (F := F) c i arg2 harg2 arg3 harg3 arg4 harg4 arg5 harg5 arg6 harg6 arg7 harg7 arg8 harg8 hc0 hc1 x0 x1 x2 xs0 xs1 xs2).2.2.2.2 E K)
  isplitl [H0]; · iexact H0
  isplitl [H1]; · iexact H1
  isplitl [H2]; · iexact H2
  isplitl [H4]; · iexact H4
  isplitl [HS0]; · iexact HS0
  isplitl [HS1]; · iexact HS1
  isplitl [HS2]; · iexact HS2
  iintro ⟨H0, H1, H2, ⟨%e4, H4⟩, ⟨%es0, HS0⟩, ⟨%es1, HS1⟩, ⟨%es2, HS2⟩⟩
  iapply Hk
  isplitl [H0]; · iexact H0
  isplitl [H1]; · iexact H1
  isplitl [H2]; · iexact H2
  isplitl [H4]
  · unfold owns; iexists _; isplitr
    swap; · iexact H4
    ipureintro; exact (View.read_writes_eq_canon _ _ _ (View.cover_of_tiledL _ S1024x128.size (by sl_kernel_rfl))).trans hp.1
  isplitl [HS0]
  · unfold owns; iexists _; isplitr
    swap; · iexact HS0
    ipureintro; exact (View.read_writes_eq_canon _ _ _ (View.cover_of_tiledL _ S1024x1.size (by sl_kernel_rfl))).trans hp.2.1
  isplitl [HS1]
  · unfold owns; iexists _; isplitr
    swap; · iexact HS1
    ipureintro; exact (View.read_writes_eq_canon _ _ _ (View.cover_of_tiledL _ S1024x1.size (by sl_kernel_rfl))).trans hp.2.2.1
  unfold owns; iexists _; isplitr
  swap; · iexact HS2
  ipureintro; exact (View.read_writes_eq_canon _ _ _ (View.cover_of_tiledL _ S1024x128.size (by sl_kernel_rfl))).trans hp.2.2.2

end last

end Cert.KernelIdeal.Hand

end
-- ==== Proof.KI.Outs1.lean ====
/-
  Region 1's proof data. With `V` the buffer contents when the region is entered, `iblk1` is a window's block at a
  grid point read off its array; `scAt1` is the carried triple (running row maximum, denominator, numerator) after each
  point, by recursion on the point: at the first key tile of a query tile (t % 8 = 0) one update of the reset triple,
  otherwise one update of what the point before left. The output block is written at the last key tile only
  (t % 8 = 7), from that point's triple. The query, key and value windows' first two read ONE array, so each holds a share of it.
-/
import proofs.«169444_j60773787238589_1_alg».proof.Proof.KI.Trip1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's query, key and value blocks, at their literal types. -/
abbrev qb1 (c : Dev nD) (t : Fin cfg1.N) : Vec F S1024x256 .f32 := iblk1 V c 0 t
abbrev kb1 (c : Dev nD) (t : Fin cfg1.N) : Vec F S1024x256 .f32 := iblk1 V c 1 t
abbrev vb1 (c : Dev nD) (t : Fin cfg1.N) : Vec F S1024x128 .f32 := iblk1 V c 2 t

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The carried triple after point `n`. -/
def scAt1 (c : Dev nD) : (n : ℕ) → n < cfg1.N → Sc1 (F := F)
  | 0, hn => step1 (qb1 V c ⟨0, hn⟩) (kb1 V c ⟨0, hn⟩) (vb1 V c ⟨0, hn⟩) (init1 (F := F))
  | n + 1, hn =>
    if (n + 1) % 8 = 0 then step1 (qb1 V c ⟨n + 1, hn⟩) (kb1 V c ⟨n + 1, hn⟩) (vb1 V c ⟨n + 1, hn⟩) (init1 (F := F))
    else step1 (qb1 V c ⟨n + 1, hn⟩) (kb1 V c ⟨n + 1, hn⟩) (vb1 V c ⟨n + 1, hn⟩) (scAt1 c n (Nat.lt_of_succ_lt hn))

theorem scAt1_reset (c : Dev nD) (t : Fin cfg1.N) (h : t.val % 8 = 0) :
    scAt1 V c t.val t.isLt = step1 (qb1 V c t) (kb1 V c t) (vb1 V c t) (init1 (F := F)) := by
  obtain ⟨n, hn⟩ := t
  cases n with
  | zero => rfl
  | succ n => exact if_pos h

theorem scAt1_step (c : Dev nD) (t : Fin cfg1.N) (h : ¬ t.val % 8 = 0) :
    scAt1 V c t.val t.isLt = step1 (qb1 V c t) (kb1 V c t) (vb1 V c t) (scAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The core's scoped buffers that belong to the other region, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem PhiA1_split (c : Dev nD) : (Pipeline.ΦA spec1 c : sProp 𝕄) ⊢ iprop((∃ d, owns (c : Thread nD τ) scM1_0 fullShare d) ∗ (∃ d, owns (c : Thread nD τ) scM1_1 fullShare d) ∗ (∃ d, owns (c : Thread nD τ) scM1_2 fullShare d) ∗ rest1 (F := F) c ∗ ∃ r, prngReg c r) := by
  unfold Pipeline.ΦA rest1; rw [scopedRest1_eq]; simp only [scM1_0, scM1_1, scM1_2, owns_whole]
  iintro ⟨⟨R0, R1, R2, R3, R4, R5, R6, R7, R8, R9, R10, R11, S0, S1, S2⟩, Hg⟩
  isplitl [S0]; · iexact S0
  isplitl [S1]; · iexact S1
  isplitl [S2]; · iexact S2
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact Hg

theorem PhiA1_join (c : Dev nD) : iprop((∃ d, owns (c : Thread nD τ) scM1_0 fullShare d) ∗ (∃ d, owns (c : Thread nD τ) scM1_1 fullShare d) ∗ (∃ d, owns (c : Thread nD τ) scM1_2 fullShare d) ∗ rest1 (F := F) c ∗ ∃ r, prngReg c r) ⊢ (Pipeline.ΦA spec1 c : sProp 𝕄) := by
  unfold Pipeline.ΦA rest1; rw [scopedRest1_eq]; simp only [scM1_0, scM1_1, scM1_2, owns_whole]
  iintro ⟨S0, S1, S2, ⟨R0, R1, R2, R3, R4, R5, R6, R7, R8, R9, R10, R11⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [S0]; · iexact S0
    isplitl [S1]; · iexact S1
    iexact S2
  iexact Hg

/-- The invariant before point `n`: before the first, every scratch at anything; afterwards the three scratch buffers at
    the triple the point before left. -/
def PhiS1 (c : Dev nD) : (n : ℕ) → n ≤ cfg1.N → sProp 𝕄
  | 0, _ => Pipeline.ΦA spec1 c
  | n + 1, hn => iprop(owns (c : Thread nD τ) scM1_0 fullShare (scAt1 V c n hn).1 ∗ owns (c : Thread nD τ) scM1_1 fullShare (scAt1 V c n hn).2.1
      ∗ owns (c : Thread nD τ) scM1_2 fullShare (scAt1 V c n hn).2.2 ∗ rest1 (F := F) c ∗ ∃ r, prngReg c r)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare (scAt1 V c n hn).1 ∗ owns (c : Thread nD τ) scM1_1 fullShare (scAt1 V c n hn).2.1
      ∗ owns (c : Thread nD τ) scM1_2 fullShare (scAt1 V c n hn).2.2 ∗ rest1 (F := F) c ∗ ∃ r, prngReg c r) := rfl
theorem PhiS1_pos (c : Dev nD) (n : ℕ) (h : n ≤ cfg1.N) (hz : n ≠ 0) :
    PhiS1 V c n h = iprop(owns (c : Thread nD τ) scM1_0 fullShare (scAt1 V c (n - 1) (by omega)).1 ∗ owns (c : Thread nD τ) scM1_1 fullShare (scAt1 V c (n - 1) (by omega)).2.1
      ∗ owns (c : Thread nD τ) scM1_2 fullShare (scAt1 V c (n - 1) (by omega)).2.2 ∗ rest1 (F := F) c ∗ ∃ r, prngReg c r) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fin1 (scAt1 V c t.val t.isLt)
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- What the output window's staging buffer holds after a closing point: the quotient formed from that point's triple. -/
theorem after1_3 (c : Dev nD) (t : Fin cfg1.N) : (dat1 V c).after 3 t = fin1 (scAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: which of the three cases the point is in is read off t % 8; the invariant hands the body the
    three scratch buffers at the triple the point before left (at anything before the first point) and takes them back at
    this point's triple; away from the closing points the output window's buffer passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt N_1
  by_cases h0 : t.val % 8 = 0
  · have h7 : ¬ t.val % 8 = 7 := by omega
    rw [Dat.leavesExact_idle (dat1 V c) 3 t (idleAt1_3 t h7) (noFlush1_3 t h7), scAt1_reset V c t h0]
    have hc0 : cond1_0 (grid1.coords t) := (hcond1_0 t).mpr h0
    have hc1 : ¬ cond1_1 (grid1.coords t) := fun h => h7 ((hcond1_1 t).mp h)
    by_cases hz : t.val = 0
    · rw [PhiS1_castSucc V c t, PhiS1_zero V c _ _ hz]
      iintro ⟨HΦ, Ho, ⟨%d0, H0⟩, ⟨%d1, H1⟩, ⟨%d2, H2⟩, H4o⟩
      ihave HΦ' := (PhiA1_split (F := F) c) $$ HΦ
      icases HΦ' with ⟨HS0, HS1, HS2, Hr, Hg⟩
      iapply (run1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (qb1 V c t) (kb1 V c t) (vb1 V c t) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      iexact H4o
    · rw [PhiS1_castSucc V c t, PhiS1_pos V c _ _ hz]
      iintro ⟨⟨HS0, HS1, HS2, Hr, Hg⟩, Ho, ⟨%d0, H0⟩, ⟨%d1, H1⟩, ⟨%d2, H2⟩, H4o⟩
      iapply (run1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (qb1 V c t) (kb1 V c t) (vb1 V c t) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      iexact H4o
  · have hz : t.val ≠ 0 := fun h => h0 (by rw [h])
    have hc0 : ¬ cond1_0 (grid1.coords t) := fun h => h0 ((hcond1_0 t).mp h)
    rw [PhiS1_castSucc V c t, PhiS1_pos V c _ _ hz, scAt1_step V c t h0]
    by_cases h7 : t.val % 8 = 7
    · have hc1 : cond1_1 (grid1.coords t) := (hcond1_1 t).mpr h7
      rw [show (dat1 V c).leavesExact 3 t = owns (c : Thread nD τ) (ms1_3 t) fullShare ((dat1 V c).after 3 t) from by
        unfold Dat.leavesExact; rw [liveAt1_3 t h7], after1_3, scAt1_step V c t h0]
      iintro ⟨⟨HS0, HS1, HS2, Hr, Hg⟩, Ho, ⟨%d0, H0⟩, ⟨%d1, H1⟩, ⟨%d2, H2⟩, ⟨%d4, H4o⟩⟩
      iapply (run1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (qb1 V c t) (kb1 V c t) (vb1 V c t) _ _ _ Set.univ _)
      isplitl [H0]; · iexact H0
      isplitl [H1]; · iexact H1
      isplitl [H2]; · iexact H2
      isplitl [H4o]; · iexists _; iexact H4o
      isplitl [HS0]; · iexact HS0
      isplitl [HS1]; · iexact HS1
      isplitl [HS2]; · iexact HS2
      iintro ⟨H0, H1, H2, H4o, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      iexact H4o
    · have hc1 : ¬ cond1_1 (grid1.coords t) := fun h => h7 ((hcond1_1 t).mp h)
      rw [Dat.leavesExact_idle (dat1 V c) 3 t (idleAt1_3 t h7) (noFlush1_3 t h7)]
      iintro ⟨⟨HS0, HS1, HS2, Hr, Hg⟩, Ho, ⟨%d0, H0⟩, ⟨%d1, H1⟩, ⟨%d2, H2⟩, H4o⟩
      iapply (run1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (qb1 V c t) (kb1 V c t) (vb1 V c t) _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      iexact H4o

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scratch buffers back at some contents. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne]
  refine BIBase.Entails.trans ?_ (PhiA1_join (F := F) c)
  iintro ⟨HS0, HS1, HS2, Hr, Hg⟩
  isplitl [HS0]; · iexists _; iexact HS0
  isplitl [HS1]; · iexists _; iexact HS1
  isplitl [HS2]; · iexists _; iexact HS2
  isplitl [Hr]; · iexact Hr
  iexact Hg

end Cert.KernelIdeal.Hand

end
-- ==== Proof.KI.Main.lean ====
import proofs.«169444_j60773787238589_1_alg».proof.Proof.KI.Outs0
import proofs.«169444_j60773787238589_1_alg».proof.Proof.KI.Outs1
import proofs.«169444_j60773787238589_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem share0_0 (V' : (c : Dev nD) → (b : Ref sig .tc) → Buf (Elt F) ((c : Thread nD τ).loc b)) (c : Dev nD) : (dat0 V' c).share 0 = fullShare.left := rfl
theorem share0_1 (V' : (c : Dev nD) → (b : Ref sig .tc) → Buf (Elt F) ((c : Thread nD τ).loc b)) (c : Dev nD) : (dat0 V' c).share 1 = fullShare.right.left := rfl
theorem share0_2 (V' : (c : Dev nD) → (b : Ref sig .tc) → Buf (Elt F) ((c : Thread nD τ).loc b)) (c : Dev nD) : (dat0 V' c).share 2 = fullShare.right.right := rfl
theorem share0_3 (V' : (c : Dev nD) → (b : Ref sig .tc) → Buf (Elt F) ((c : Thread nD τ).loc b)) (c : Dev nD) : (dat0 V' c).share 3 = fullShare := rfl
theorem share0_4 (V' : (c : Dev nD) → (b : Ref sig .tc) → Buf (Elt F) ((c : Thread nD τ).loc b)) (c : Dev nD) : (dat0 V' c).share 4 = fullShare := rfl

theorem arrays_eq0 (V' : (c : Dev nD) → (b : Ref sig .tc) → Buf (Elt F) ((c : Thread nD τ).loc b)) (c : Dev nD)
    (Fx : (w : Fin cfg0.W) → Buf (Elt F) ((cfg0.win w).arr.view.loc (c.tc : Thread nD τ))) :
    ((dat0 V' c).arrays Fx : sProp 𝕄) = iprop((((c : Thread nD τ).loc main_arg0) ↦{fullShare.left} Fx 0) ∗ (((c : Thread nD τ).loc main_arg0) ↦{fullShare.right.left} Fx 1) ∗ (((c : Thread nD τ).loc main_arg0) ↦{fullShare.right.right} Fx 2) ∗ (((c : Thread nD τ).loc main_arg2) ↦{fullShare} Fx 3) ∗ (((c : Thread nD τ).loc main_v0) ↦{fullShare} Fx 4)) := by
  unfold Dat.arrays
  rw [bigSep_W0, (arr_whole0 0).set_eq_univ, (arr_whole0 3).set_eq_univ, (arr_whole0 4).set_eq_univ, share0_0, share0_1, share0_2, share0_3, share0_4]

theorem held_eq0 (c : Dev nD) (W : Valuation τ sig (Elt F)) :
    (StableHlo.held (c : Thread nD τ) (Pipeline.ucRefs τ sig) W : sProp 𝕄)
      = iprop(((((c : Thread nD τ).loc main_arg0) ↦{fullShare} W (Proc.devRef .tc main_arg0)) ∗ (((c : Thread nD τ).loc main_arg2) ↦{fullShare} W (Proc.devRef .tc main_arg2)) ∗ (((c : Thread nD τ).loc main_v0) ↦{fullShare} W (Proc.devRef .tc main_v0))) ∗ Pipeline.unscopedRest (Ix := Unit) (Name := ℕ) (U := UR sig nD τ) (Lvl := ℕ) spec0 c (fun b => W (Proc.devRef .tc b))) := by
  rw [← Pipeline.unscopedBufs_held (Ix := Unit) (Name := ℕ) (U := UR sig nD τ) (Lvl := ℕ) c W,
    Pipeline.unscopedBufs_split₀ (Ix := Unit) (Name := ℕ) (U := UR sig nD τ) (Lvl := ℕ) cfgs 0 winFacts₀0.arr_unscoped c (fun b => W (Proc.devRef .tc b))]
  congr 1
  unfold Pipeline.arrBufs
  rw [bigSep_eq_bigSepL_of_eq [main_arg0, main_arg2, main_v0] (by decide) (by decide)]
  rfl

theorem deal0 (V' : (c : Dev nD) → (b : Ref sig .tc) → Buf (Elt F) ((c : Thread nD τ).loc b)) (c : Dev nD) (W : Valuation τ sig (Elt F))
    (Fx : (w : Fin cfg0.W) → Buf (Elt F) ((cfg0.win w).arr.view.loc (c.tc : Thread nD τ))) (hF0 : Fx 0 = W (Proc.devRef .tc main_arg0)) (hF1 : Fx 1 = W (Proc.devRef .tc main_arg0)) (hF2 : Fx 2 = W (Proc.devRef .tc main_arg0)) (hF3 : Fx 3 = W (Proc.devRef .tc main_arg2)) (hF4 : Fx 4 = W (Proc.devRef .tc main_v0)) :
    (iprop((((c : Thread nD τ).loc main_arg0) ↦{fullShare} W (Proc.devRef .tc main_arg0)) ∗ (((c : Thread nD τ).loc main_arg2) ↦{fullShare} W (Proc.devRef .tc main_arg2)) ∗ (((c : Thread nD τ).loc main_v0) ↦{fullShare} W (Proc.devRef .tc main_v0))) : sProp 𝕄) ⊢ (dat0 V' c).arrays Fx := by
  rw [arrays_eq0, hF0, hF1, hF2, hF3, hF4]
  iintro ⟨H0, A3, A4⟩
  ihave H0' := ((pointsTo_share (PosShare.mem_left_op_right fullShare)).1) $$ H0
  icases H0' with ⟨A0, Hr⟩
  ihave Hr' := ((pointsTo_share (PosShare.mem_left_op_right fullShare.right)).1) $$ Hr
  icases Hr' with ⟨A1, A2⟩
  isplitl [A0]; · iexact A0
  isplitl [A1]; · iexact A1
  isplitl [A2]; · iexact A2
  isplitl [A3]; · iexact A3
  iexact A4

theorem join0 (V' : (c : Dev nD) → (b : Ref sig .tc) → Buf (Elt F) ((c : Thread nD τ).loc b)) (c : Dev nD) (W : Valuation τ sig (Elt F))
    (Fx : (w : Fin cfg0.W) → Buf (Elt F) ((cfg0.win w).arr.view.loc (c.tc : Thread nD τ))) (hF0 : Fx 0 = W (Proc.devRef .tc main_arg0)) (hF1 : Fx 1 = W (Proc.devRef .tc main_arg0)) (hF2 : Fx 2 = W (Proc.devRef .tc main_arg0)) (hF3 : Fx 3 = W (Proc.devRef .tc main_arg2)) (hF4 : Fx 4 = W (Proc.devRef .tc main_v0)) :
    ((dat0 V' c).arrays Fx : sProp 𝕄) ⊢ iprop((((c : Thread nD τ).loc main_arg0) ↦{fullShare} W (Proc.devRef .tc main_arg0)) ∗ (((c : Thread nD τ).loc main_arg2) ↦{fullShare} W (Proc.devRef .tc main_arg2)) ∗ (((c : Thread nD τ).loc main_v0) ↦{fullShare} W (Proc.devRef .tc main_v0))) := by
  rw [arrays_eq0, hF0, hF1, hF2, hF3, hF4]
  iintro ⟨A0, A1, A2, A3, A4⟩
  isplitl [A0 A1 A2]
  · iapply (pointsTo_share (PosShare.mem_left_op_right fullShare)).2
    isplitl [A0]; · iexact A0
    iapply (pointsTo_share (PosShare.mem_left_op_right fullShare.right)).2
    isplitl [A1] <;> iassumption
  isplitl [A3]; · iexact A3
  iexact A4

theorem share1_0 (V' : (c : Dev nD) → (b : Ref sig .tc) → Buf (Elt F) ((c : Thread nD τ).loc b)) (c : Dev nD) : (dat1 V' c).share 0 = fullShare.left := rfl
theorem share1_1 (V' : (c : Dev nD) → (b : Ref sig .tc) → Buf (Elt F) ((c : Thread nD τ).loc b)) (c : Dev nD) : (dat1 V' c).share 1 = fullShare.right := rfl
theorem share1_2 (V' : (c : Dev nD) → (b : Ref sig .tc) → Buf (Elt F) ((c : Thread nD τ).loc b)) (c : Dev nD) : (dat1 V' c).share 2 = fullShare := rfl
theorem share1_3 (V' : (c : Dev nD) → (b : Ref sig .tc) → Buf (Elt F) ((c : Thread nD τ).loc b)) (c : Dev nD) : (dat1 V' c).share 3 = fullShare := rfl

theorem arrays_eq1 (V' : (c : Dev nD) → (b : Ref sig .tc) → Buf (Elt F) ((c : Thread nD τ).loc b)) (c : Dev nD)
    (Fx : (w : Fin cfg1.W) → Buf (Elt F) ((cfg1.win w).arr.view.loc (c.tc : Thread nD τ))) :
    ((dat1 V' c).arrays Fx : sProp 𝕄) = iprop((((c : Thread nD τ).loc main_arg0) ↦{fullShare.left} Fx 0) ∗ (((c : Thread nD τ).loc main_arg0) ↦{fullShare.right} Fx 1) ∗ (((c : Thread nD τ).loc main_v0) ↦{fullShare} Fx 2) ∗ (((c : Thread nD τ).loc main_v1) ↦{fullShare} Fx 3)) := by
  unfold Dat.arrays
  rw [bigSep_W1, (arr_whole1 0).set_eq_univ, (arr_whole1 2).set_eq_univ, (arr_whole1 3).set_eq_univ, share1_0, share1_1, share1_2, share1_3]

theorem held_eq1 (c : Dev nD) (W : Valuation τ sig (Elt F)) :
    (StableHlo.held (c : Thread nD τ) (Pipeline.ucRefs τ sig) W : sProp 𝕄)
      = iprop(((((c : Thread nD τ).loc main_arg0) ↦{fullShare} W (Proc.devRef .tc main_arg0)) ∗ (((c : Thread nD τ).loc main_v0) ↦{fullShare} W (Proc.devRef .tc main_v0)) ∗ (((c : Thread nD τ).loc main_v1) ↦{fullShare} W (Proc.devRef .tc main_v1))) ∗ Pipeline.unscopedRest (Ix := Unit) (Name := ℕ) (U := UR sig nD τ) (Lvl := ℕ) spec1 c (fun b => W (Proc.devRef .tc b))) := by
  rw [← Pipeline.unscopedBufs_held (Ix := Unit) (Name := ℕ) (U := UR sig nD τ) (Lvl := ℕ) c W,
    Pipeline.unscopedBufs_split₀ (Ix := Unit) (Name := ℕ) (U := UR sig nD τ) (Lvl := ℕ) cfgs 1 winFacts₀1.arr_unscoped c (fun b => W (Proc.devRef .tc b))]
  congr 1
  unfold Pipeline.arrBufs
  rw [bigSep_eq_bigSepL_of_eq [main_arg0, main_v0, main_v1] (by decide) (by decide)]
  rfl

theorem deal1 (V' : (c : Dev nD) → (b : Ref sig .tc) → Buf (Elt F) ((c : Thread nD τ).loc b)) (c : Dev nD) (W : Valuation τ sig (Elt F))
    (Fx : (w : Fin cfg1.W) → Buf (Elt F) ((cfg1.win w).arr.view.loc (c.tc : Thread nD τ))) (hF0 : Fx 0 = W (Proc.devRef .tc main_arg0)) (hF1 : Fx 1 = W (Proc.devRef .tc main_arg0)) (hF2 : Fx 2 = W (Proc.devRef .tc main_v0)) (hF3 : Fx 3 = W (Proc.devRef .tc main_v1)) :
    (iprop((((c : Thread nD τ).loc main_arg0) ↦{fullShare} W (Proc.devRef .tc main_arg0)) ∗ (((c : Thread nD τ).loc main_v0) ↦{fullShare} W (Proc.devRef .tc main_v0)) ∗ (((c : Thread nD τ).loc main_v1) ↦{fullShare} W (Proc.devRef .tc main_v1))) : sProp 𝕄) ⊢ (dat1 V' c).arrays Fx := by
  rw [arrays_eq1, hF0, hF1, hF2, hF3]
  iintro ⟨H0, A2, A3⟩
  ihave H0' := ((pointsTo_share (PosShare.mem_left_op_right fullShare)).1) $$ H0
  icases H0' with ⟨A0, A1⟩
  isplitl [A0]; · iexact A0
  isplitl [A1]; · iexact A1
  isplitl [A2]; · iexact A2
  iexact A3

theorem join1 (V' : (c : Dev nD) → (b : Ref sig .tc) → Buf (Elt F) ((c : Thread nD τ).loc b)) (c : Dev nD) (W : Valuation τ sig (Elt F))
    (Fx : (w : Fin cfg1.W) → Buf (Elt F) ((cfg1.win w).arr.view.loc (c.tc : Thread nD τ))) (hF0 : Fx 0 = W (Proc.devRef .tc main_arg0)) (hF1 : Fx 1 = W (Proc.devRef .tc main_arg0)) (hF2 : Fx 2 = W (Proc.devRef .tc main_v0)) (hF3 : Fx 3 = W (Proc.devRef .tc main_v1)) :
    ((dat1 V' c).arrays Fx : sProp 𝕄) ⊢ iprop((((c : Thread nD τ).loc main_arg0) ↦{fullShare} W (Proc.devRef .tc main_arg0)) ∗ (((c : Thread nD τ).loc main_v0) ↦{fullShare} W (Proc.devRef .tc main_v0)) ∗ (((c : Thread nD τ).loc main_v1) ↦{fullShare} W (Proc.devRef .tc main_v1))) := by
  rw [arrays_eq1, hF0, hF1, hF2, hF3]
  iintro ⟨A0, A1, A2, A3⟩
  isplitl [A0 A1]
  · iapply (pointsTo_share (PosShare.mem_left_op_right fullShare)).2
    isplitl [A0] <;> iassumption
  isplitl [A2]; · iexact A2
  iexact A3

variable (m : (ℓ : Loc nD τ sig) → Buf (Elt F) ℓ) (ρ : Dev nD → PrngReg)

abbrev Ve0 (c : Dev nD) (b : Ref sig .tc) : Buf (Elt F) ((c : Thread nD τ).loc b) := m ((c : Thread nD τ).loc b)

def o1 (c : Dev nD) : Buf (Elt F) ((c : Thread nD τ).loc main_v0) := (dat0 (Ve0 m) c).arrAt 4 cfg0.N

def W1 (c : Dev nD) : Valuation τ sig (Elt F) := Function.update (Gen.V0 m c) main_v0 (o1 m c)
abbrev Ve1 (c : Dev nD) (b : Ref sig .tc) : Buf (Elt F) ((c : Thread nD τ).loc b) := W1 m c (Proc.devRef .tc b)

def o2 (c : Dev nD) : Buf (Elt F) ((c : Thread nD τ).loc main_v1) := (dat1 (Ve1 m) c).arrAt 3 cfg1.N

def W2 (c : Dev nD) : Valuation τ sig (Elt F) := Function.update (W1 m c) main_v1 (o2 m c)

def outs : Gen.Outs (F := F) := fun _ r c =>
  if h : r = main_v0 then h ▸ o1 m c else if h' : r = main_v1 then h' ▸ o2 m c else m ((c : Thread nD τ).loc r)
theorem outs_v0 (J : ℕ) (c : Dev nD) : outs m J main_v0 c = o1 m c := dif_pos rfl
theorem outs_v1 (J : ℕ) (c : Dev nD) : outs m J main_v1 c = o2 m c := (dif_neg (by decide)).trans (dif_pos rfl)
theorem V1_eq (c : Dev nD) : Gen.V1 m (outs m) c = W1 m c := by
  show Function.update (Gen.V0 m c) main_v0 (outs m 1 main_v0 c) = _
  rw [outs_v0]; rfl
theorem V2_eq (c : Dev nD) : Gen.V2 m (outs m) c = W2 m c := by
  show Function.update (Gen.V1 m (outs m) c) main_v1 (outs m 2 main_v1 c) = _
  rw [outs_v1, V1_eq]; rfl

def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev Lc : GSem nD τ sig → Finset Unit := fun _ => ∅
abbrev lvc : GSem nD τ sig → Unit → ℕ := fun _ _ => 0

abbrev Rr (c : Dev nD) : sProp 𝕄 := iprop((∃ r, prngReg c r) ∗ ∃ W, owes (c : Thread nD τ) (0 : CellTallies nD τ sig Unit) W)

theorem rest0_out (c : Dev nD) :
    (Pipeline.unscopedRest (Ix := Unit) (Name := ℕ) (U := UR sig nD τ) (Lvl := ℕ) spec0 c (fun b => W1 m c (Proc.devRef .tc b)) : sProp 𝕄)
      = Pipeline.unscopedRest spec0 c (fun b => Gen.V0 m c (Proc.devRef .tc b)) := by
  unfold Pipeline.unscopedRest
  refine bigSep_congr fun b hb => ?_
  have hne : b ≠ main_v0 := fun e => (Finset.mem_sdiff.mp hb).2 (Finset.mem_image.mpr ⟨4, Finset.mem_univ _, e.symm ▸ rfl⟩)
  beta_reduce
  unfold W1
  rw [Function.update_of_ne (StableHlo.devRef_ne_of_ne hne)]

set_option backward.isDefEq.respectTransparency.types false in

def reg0 : Pipeline.RegionSeg (pcfgs (F := F)) Gen.adm (pdats m) () defs₀ Variants.none Lc lvc 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ Lc lvc 0 fun _ _ => rfl
  pre c := iprop(StableHlo.held (c : Thread nD τ) (Pipeline.ucRefs τ sig) (Gen.V0 m c) ∗ Rr (F := F) c)
  post c := iprop(StableHlo.held (c : Thread nD τ) (Pipeline.ucRefs τ sig) (W1 m c) ∗ Rr (F := F) c)
  X c := iprop(∃ r, prngReg c r)
  Y c := iprop(∃ r, prngReg c r)
  Z c := Pipeline.unscopedRest (Ix := Unit) (Name := ℕ) (U := UR sig nD τ) (Lvl := ℕ) spec0 c (fun b => Gen.V0 m c (Proc.devRef .tc b))
  hentry c := by
    rw [Pipeline.ownSems0_none]
    iintro ⟨⟨Hub, Hp, HO⟩, -, -⟩
    ihave Hub' := (BIBase.Entails.of_eq (held_eq0 (F := F) c (Gen.V0 m c))) $$ Hub
    icases Hub' with ⟨Harr, Hrest⟩
    ihave Ha := (deal0 (Ve0 m) c (Gen.V0 m c) (fun w => (dat0 (Ve0 m) c).arrAt w 0) rfl rfl rfl rfl rfl) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    show (iprop((dat0 (Ve0 m) c).arrays (fun w => (dat0 (Ve0 m) c).arrAt w cfg0.N) ∗ (dat0 (Ve0 m) c).owesAt () (Fin.last cfg0.N)
        ∗ (∃ r, prngReg c r) ∗ Pipeline.unscopedRest (Ix := Unit) (Name := ℕ) (U := UR sig nD τ) (Lvl := ℕ) spec0 c (fun b => Gen.V0 m c (Proc.devRef .tc b))) : sProp 𝕄) ⊢ _
    iintro ⟨Ha, HO, HY, Hrest⟩
    ihave Hj := (join0 (Ve0 m) c (W1 m c) (fun w => (dat0 (Ve0 m) c).arrAt w cfg0.N)
        (((dat0 (Ve0 m) c).arrAt_in 0 rfl _).trans ((A_eq0 (Ve0 m) c 0).trans (by show Gen.V0 m c (Proc.devRef .tc main_arg0) = _; unfold W1; rw [Function.update_of_ne (StableHlo.devRef_ne_of_ne (by decide : main_arg0 ≠ main_v0))])))
        (((dat0 (Ve0 m) c).arrAt_in 1 rfl _).trans ((A_eq0 (Ve0 m) c 1).trans (by show Gen.V0 m c (Proc.devRef .tc main_arg0) = _; unfold W1; rw [Function.update_of_ne (StableHlo.devRef_ne_of_ne (by decide : main_arg0 ≠ main_v0))])))
        (((dat0 (Ve0 m) c).arrAt_in 2 rfl _).trans ((A_eq0 (Ve0 m) c 2).trans (by show Gen.V0 m c (Proc.devRef .tc main_arg0) = _; unfold W1; rw [Function.update_of_ne (StableHlo.devRef_ne_of_ne (by decide : main_arg0 ≠ main_v0))])))
        (((dat0 (Ve0 m) c).arrAt_in 3 rfl _).trans ((A_eq0 (Ve0 m) c 3).trans (by show Gen.V0 m c (Proc.devRef .tc main_arg2) = _; unfold W1; rw [Function.update_of_ne (StableHlo.devRef_ne_of_ne (by decide : main_arg2 ≠ main_v0))])))
        (by show (dat0 (Ve0 m) c).arrAt 4 cfg0.N = _; unfold W1; rw [Function.update_self]; rfl)) $$ Ha
    imodintro
    isplitl [Hj Hrest]
    · rw [held_eq0 (F := F) c (W1 m c), rest0_out]
      isplitl [Hj]; · iexact Hj
      iexact Hrest
    isplitl [HY]; · iexact HY
    unfold Pipeline.Dat.owesAt Pipeline.owesWithin
    icases HO with ⟨%W, -, HO⟩; iexists W; iexact HO

theorem rest1_out (c : Dev nD) :
    (Pipeline.unscopedRest (Ix := Unit) (Name := ℕ) (U := UR sig nD τ) (Lvl := ℕ) spec1 c (fun b => W2 m c (Proc.devRef .tc b)) : sProp 𝕄)
      = Pipeline.unscopedRest spec1 c (fun b => W1 m c (Proc.devRef .tc b)) := by
  unfold Pipeline.unscopedRest
  refine bigSep_congr fun b hb => ?_
  have hne : b ≠ main_v1 := fun e => (Finset.mem_sdiff.mp hb).2 (Finset.mem_image.mpr ⟨3, Finset.mem_univ _, e.symm ▸ rfl⟩)
  beta_reduce
  unfold W2
  rw [Function.update_of_ne (StableHlo.devRef_ne_of_ne hne)]

set_option backward.isDefEq.respectTransparency.types false in

def reg1 : Pipeline.RegionSeg (pcfgs (F := F)) Gen.adm (pdats m) () defs₀ Variants.none Lc lvc 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ Lc lvc 1 fun _ _ => rfl
  pre c := iprop(StableHlo.held (c : Thread nD τ) (Pipeline.ucRefs τ sig) (W1 m c) ∗ Rr (F := F) c)
  post c := iprop(StableHlo.held (c : Thread nD τ) (Pipeline.ucRefs τ sig) (W2 m c) ∗ Rr (F := F) c)
  X c := iprop(∃ r, prngReg c r)
  Y c := iprop(∃ r, prngReg c r)
  Z c := Pipeline.unscopedRest (Ix := Unit) (Name := ℕ) (U := UR sig nD τ) (Lvl := ℕ) spec1 c (fun b => W1 m c (Proc.devRef .tc b))
  hentry c := by
    rw [Pipeline.ownSems0_none]
    iintro ⟨⟨Hub, Hp, HO⟩, -, -⟩
    ihave Hub' := (BIBase.Entails.of_eq (held_eq1 (F := F) c (W1 m c))) $$ Hub
    icases Hub' with ⟨Harr, Hrest⟩
    ihave Ha := (deal1 (Ve1 m) c (W1 m c) (fun w => (dat1 (Ve1 m) c).arrAt w 0) rfl rfl rfl rfl) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine BIBase.Entails.trans (hout1 (Ve1 m) c) ?_
    unfold Pipeline.ΦA
    iintro ⟨Hr, Hp⟩
    isplitl [Hp]; · iexact Hp
    isplitr; · iempintro
    iexact Hr
  hexit c := by
    show (iprop((dat1 (Ve1 m) c).arrays (fun w => (dat1 (Ve1 m) c).arrAt w cfg1.N) ∗ (dat1 (Ve1 m) c).owesAt () (Fin.last cfg1.N)
        ∗ (∃ r, prngReg c r) ∗ Pipeline.unscopedRest (Ix := Unit) (Name := ℕ) (U := UR sig nD τ) (Lvl := ℕ) spec1 c (fun b => W1 m c (Proc.devRef .tc b))) : sProp 𝕄) ⊢ _
    iintro ⟨Ha, HO, HY, Hrest⟩
    ihave Hj := (join1 (Ve1 m) c (W2 m c) (fun w => (dat1 (Ve1 m) c).arrAt w cfg1.N)
        (((dat1 (Ve1 m) c).arrAt_in 0 rfl _).trans ((A_eq1 (Ve1 m) c 0).trans (by show W1 m c (Proc.devRef .tc main_arg0) = _; unfold W2; rw [Function.update_of_ne (StableHlo.devRef_ne_of_ne (by decide : main_arg0 ≠ main_v1))])))
        (((dat1 (Ve1 m) c).arrAt_in 1 rfl _).trans ((A_eq1 (Ve1 m) c 1).trans (by show W1 m c (Proc.devRef .tc main_arg0) = _; unfold W2; rw [Function.update_of_ne (StableHlo.devRef_ne_of_ne (by decide : main_arg0 ≠ main_v1))])))
        (((dat1 (Ve1 m) c).arrAt_in 2 rfl _).trans ((A_eq1 (Ve1 m) c 2).trans (by show W1 m c (Proc.devRef .tc main_v0) = _; unfold W2; rw [Function.update_of_ne (StableHlo.devRef_ne_of_ne (by decide : main_v0 ≠ main_v1))])))
        (by show (dat1 (Ve1 m) c).arrAt 3 cfg1.N = _; unfold W2; rw [Function.update_self]; rfl)) $$ Ha
    imodintro
    isplitl [Hj Hrest]
    · rw [held_eq1 (F := F) c (W2 m c), rest1_out]
      isplitl [Hj]; · iexact Hj
      iexact Hrest
    isplitl [HY]; · iexact HY
    unfold Pipeline.Dat.owesAt Pipeline.owesWithin
    icases HO with ⟨%W, -, HO⟩; iexists W; iexact HO

abbrev u0 : UR sig nD τ := initOf (Pipeline.cells cfgs cellOf_inj) (Pipeline.launchToks cfgs cellOf_inj)

theorem hu0 : (ownU (u0 : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE2 (c : Dev nD) : Rr (F := F) c ⊢ (iprop(∃ W, owes (c : Thread nD τ) (0 : CellTallies nD τ sig Unit) W) : sProp 𝕄) := by
  iintro ⟨-, HO⟩; iexact HO

theorem V3_v2 (c : Dev nD) : Gen.V3 m (outs m) c (Proc.devRef .tc main_v2)
    = Host.dotGeneral dot_S8192x128_S128x2_S8192x2_1_0_0_1_n_n none (o2 m c) (m ((c : Thread nD τ).loc main_arg3)) := by
  show StableHlo.after Gen.hostOps2 (Gen.V2 m (outs m) c) (Proc.devRef .tc main_v2) = _
  rw [V2_eq]
  after_results
  have e1 : W2 m c (Proc.devRef .tc main_v1) = o2 m c := by unfold W2; rw [Function.update_self]
  have e3 : W2 m c (Proc.devRef .tc main_arg3) = m ((c : Thread nD τ).loc main_arg3) := by
    unfold W2 W1
    rw [Function.update_of_ne (StableHlo.devRef_ne_of_ne (by decide : main_arg3 ≠ main_v1)),
      Function.update_of_ne (StableHlo.devRef_ne_of_ne (by decide : main_arg3 ≠ main_v0))]
  rw [e1, e3]

set_option backward.isDefEq.respectTransparency.types false in

/-- The whole program's run: two regions, then the contraction with g2; the result is named, the arguments end unchanged. -/
theorem run_value : θ_run defs (onTc (τ := τ) (main (F := F))) ⟨m, fun _ => 0, ρ⟩ (fun r => ∀ c : Dev nD,
      r.2.mem ((c.tc : Thread nD τ).loc main_v2)
        = Host.dotGeneral dot_S8192x128_S128x2_S8192x2_1_0_0_1_n_n none (o2 m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ Variants.none Lc lvc m ρ main
    (Gen.segs m (outs m) Variants.none Lc lvc (fun _ c => Rr (F := F) c) () (pdats m) (reg0 m) (reg1 m))
    (fun c Q => by
      rewrite [Gen.main_chain c, Pipeline.Seg.run_eq_chain,
        show (Gen.segs m (outs m) Variants.none Lc lvc (fun _ c => Rr (F := F) c) () (pdats m) (reg0 m) (reg1 m) c).map Pipeline.Seg.prog = [
          Prog.lift (.customCall (Pipeline.entry 0) ()),
          Prog.lift (.customCall (Pipeline.entry 1) ()),
          StableHlo.seq Gen.hostOps2 ] from rfl]
      exact .rfl)
    (fun c => by simp only [Gen.segs, Pipeline.Seg.pipes_host, Pipeline.Seg.pipes_region, Pipeline.Seg.pipes_nil]; decide) 0 (fun _ _ => rfl)
    (fun _ => iprop(emp)) u0 hu0
    (T₀ := fun c => iprop(StableHlo.held (c : Thread nD τ) (Pipeline.ucRefs τ sig) (Gen.V0 m c) ∗ Rr (F := F) c))
    (Tₙ := fun c => StableHlo.held (c : Thread nD τ) (Pipeline.ucRefs τ sig) (Gen.V3 m (outs m) c))
    (hch := fun c => ⟨.rfl, .rfl, (by
        have e := V2_eq m c
        show iprop(StableHlo.held (c : Thread nD τ) (Pipeline.ucRefs τ sig) (W2 m c) ∗ Rr (F := F) c)
          ⊢ iprop(StableHlo.held (c : Thread nD τ) (Pipeline.ucRefs τ sig) (Gen.V2 m (outs m) c) ∗ Rr (F := F) c)
        rw [e]), sep_mono .rfl (hE2 c)⟩)
    (hinit := Pipeline.initEach Lc lvc fun c => by
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v2)
        = Host.dotGeneral dot_S8192x128_S128x2_S8192x2_1_0_0_1_n_n none (o2 m c) (m ((c.tc : Thread nD τ).loc main_arg3))
      ∧ s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · unfold StableHlo.held
    iintro ⟨Hh, HSI⟩
    ihave Hr := (pointsTo_read_all (Pipeline.ucRefs τ sig) (fun b => ((c : Thread nD τ).1, b)) (Gen.V3 m (outs m) c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (V3_v2 m c),
        (h (Proc.devRef .tc main_arg0) (Finset.mem_filter.mpr ⟨StableHlo.devRef_mem_tcRefs main_arg0, by decide⟩)).trans (Gen.V3_main_arg0 m (outs m) c),
        (h (Proc.devRef .tc main_arg1) (Finset.mem_filter.mpr ⟨StableHlo.devRef_mem_tcRefs main_arg1, by decide⟩)).trans (Gen.V3_main_arg1 m (outs m) c),
        (h (Proc.devRef .tc main_arg2) (Finset.mem_filter.mpr ⟨StableHlo.devRef_mem_tcRefs main_arg2, by decide⟩)).trans (Gen.V3_main_arg2 m (outs m) c),
        (h (Proc.devRef .tc main_arg3) (Finset.mem_filter.mpr ⟨StableHlo.devRef_mem_tcRefs main_arg3, by decide⟩)).trans (Gen.V3_main_arg3 m (outs m) c)⟩
    · iexact HSI

/-- The frame is that run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Hand

end
-- ==== Proof.LibOnlineSoftmaxDefs.lean ====
import Idealize.ShloMosaic.PureOps.Ideal
import Mathlib.Algebra.BigOperators.Fin
import Mathlib.Data.Finset.Fold
import Mathlib.Analysis.SpecialFunctions.Exp

noncomputable section

namespace Cert.Spec

open Idealize.ShloMosaic

variable {T B : ℕ}

def tileMax (s : Fin B → EReal) : EReal := (Finset.univ : Finset (Fin B)).fold max ⊥ s

/-- One tile's update of (running maximum, denominator, numerator): both sums rescaled by exp (m - m'), the tile's terms added. -/
def upd (st : EReal × EReal × EReal) (s v : Fin B → EReal) : EReal × EReal × EReal :=
  (max st.1 (tileMax s),
   Ideal.exp (st.1 - max st.1 (tileMax s)) * st.2.1 + ∑ j : Fin B, Ideal.exp (s j - max st.1 (tileMax s)),
   Ideal.exp (st.1 - max st.1 (tileMax s)) * st.2.2 + ∑ j : Fin B, Ideal.exp (s j - max st.1 (tileMax s)) * v j)

/-- The triple after n tiles, started from (-inf, 0, 0). -/
def run (s v : Fin T → Fin B → EReal) : ℕ → EReal × EReal × EReal
  | 0 => (⊥, 0, 0)
  | n + 1 => if h : n < T then upd (run s v n) (s ⟨n, h⟩) (v ⟨n, h⟩) else run s v n

theorem run_zero (s v : Fin T → Fin B → EReal) : run s v 0 = (⊥, 0, 0) := rfl
theorem run_succ (s v : Fin T → Fin B → EReal) (n : ℕ) (h : n < T) :
    run s v (n + 1) = upd (run s v n) (s ⟨n, h⟩) (v ⟨n, h⟩) := by
  show (if h : n < T then upd (run s v n) (s ⟨n, h⟩) (v ⟨n, h⟩) else run s v n) = _
  rw [dif_pos h]

def rowMax (s : Fin T → Fin B → EReal) : EReal :=
  (Finset.univ : Finset (Fin T × Fin B)).fold max ⊥ (fun kj => s kj.1 kj.2)

def rowDen (s : Fin T → Fin B → EReal) : EReal := ∑ k : Fin T, ∑ j : Fin B, Ideal.exp (s k j - rowMax s)

/-- The softmax weight of a key: exp (score - row maximum) over the row's sum of these. -/
def wt (s : Fin T → Fin B → EReal) (k : Fin T) (j : Fin B) : EReal := Ideal.div (Ideal.exp (s k j - rowMax s)) (rowDen s)

end Cert.Spec

end
-- ==== Proof.RowSpec.lean ====
import proofs.«169444_j60773787238589_1_alg».proof.Proof.LibOnlineSoftmaxDefs
import Idealize.ShloMosaic.Lib.ValueIdx
import Idealize.ShloMosaic.PureOps.Ideal

noncomputable section

namespace Cert.RowSpec

open Idealize.ShloMosaic Idealize.ShloMosaic.ValueIdx

def key (k : Fin 8) (j : Fin 1024) : Fin 8192 := ⟨k.val * 1024 + j.val, by have := k.isLt; have := j.isLt; omega⟩

abbrev X : Type := (⟨2, ![8192, 256]⟩ : Shape).Idx → EReal
abbrev G1 : Type := (⟨2, ![256, 128]⟩ : Shape).Idx → EReal
abbrev G2 : Type := (⟨2, ![128, 2]⟩ : Shape).Idx → EReal
abbrev H : Type := (⟨2, ![8192, 128]⟩ : Shape).Idx → EReal

def score (x : X) (r : Fin 8192) (k : Fin 8) (j : Fin 1024) : EReal := ∑ d : Fin 256, x (ix2 r d) * x (ix2 (key k j) d)

def xcol (x : X) (e : Fin 256) (k : Fin 8) (j : Fin 1024) : EReal := x (ix2 (key k j) e)

def hcol (h : H) (c : Fin 128) (k : Fin 8) (j : Fin 1024) : EReal := h (ix2 (key k j) c)

def adjx (x : X) (r : Fin 8192) (e : Fin 256) : EReal := ∑ k : Fin 8, ∑ j : Fin 1024, Spec.wt (score x r) k j * xcol x e k j
def hid (x : X) (g1 : G1) : H := fun i => max (∑ e : Fin 256, adjx x ⟨(i 0).val, (i 0).isLt⟩ e * g1 (ix2 e ⟨(i 1).val, (i 1).isLt⟩)) 0
def adjh (x : X) (h : H) (r : Fin 8192) (c : Fin 128) : EReal := ∑ k : Fin 8, ∑ j : Fin 1024, Spec.wt (score x r) k j * hcol h c k j
/-- The reference's result, row by row: softmax weights against x, through g1 clamped at zero, against that again, through g2. -/
def out (x : X) (g1 : G1) (g2 : G2) : (⟨2, ![8192, 2]⟩ : Shape).Idx → EReal :=
  fun i => ∑ c : Fin 128, adjh x (hid x g1) ⟨(i 0).val, (i 0).isLt⟩ c * g2 (ix2 c ⟨(i 1).val, (i 1).isLt⟩)

def adjxK (x : X) (r : Fin 8192) (e : Fin 256) : EReal :=
  Ideal.div (Spec.run (score x r) (xcol x e) 8).2.2 (Spec.run (score x r) (xcol x e) 8).2.1
def hidK (x : X) (g1 : G1) : H := fun i => max (∑ e : Fin 256, adjxK x ⟨(i 0).val, (i 0).isLt⟩ e * g1 (ix2 e ⟨(i 1).val, (i 1).isLt⟩)) 0

def adjhK (x : X) (h : H) : H := fun i =>
  Ideal.div (Spec.run (score x ⟨(i 0).val, (i 0).isLt⟩) (hcol h ⟨(i 1).val, (i 1).isLt⟩) 8).2.2
    (Spec.run (score x ⟨(i 0).val, (i 0).isLt⟩) (hcol h ⟨(i 1).val, (i 1).isLt⟩) 8).2.1
/-- The kernel's arrangement: each pass forms the weighted sum of unnormalised exponentials and divides once at the end. -/
def outK (x : X) (g1 : G1) (g2 : G2) : (⟨2, ![8192, 2]⟩ : Shape).Idx → EReal :=
  fun i => ∑ c : Fin 128, adjhK x (hidK x g1) (ix2 ⟨(i 0).val, (i 0).isLt⟩ c) * g2 (ix2 c ⟨(i 1).val, (i 1).isLt⟩)

end Cert.RowSpec

end
-- ==== Proof.LibRowFold.lean ====
import Idealize.ShloMosaic.PureOps.Ideal.Laws
import Idealize.ShloMosaic.Lib.ValueIdx
import Idealize.ShloMosaic.Lib.Pipeline.Value

noncomputable section

namespace Cert.LibRowFold

open Idealize.ShloMosaic Idealize.ShloMosaic.ValueIdx

theorem rowMax_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f) (funext fun k => ?_)
  refine congrArg src (funext fun ax => Fin.ext ?_)
  match ax with
  | ⟨0, _⟩ => rfl
  | ⟨1, _⟩ => rfl

end Cert.LibRowFold

end
-- ==== Proof.LibKeepdims.lean ====
import Idealize.ShloMosaic.PureOps.Ideal.Laws
import Idealize.ShloMosaic.Lib.ValueIdx
import Idealize.ShloMosaic.Lib.Pipeline.Value

noncomputable section

namespace Cert.LibKeepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.LibSoftmaxRows.lean ====
import proofs.«169444_j60773787238589_1_alg».proof.Proof.LibRowFold
import proofs.«169444_j60773787238589_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.LibSoftmaxRows

open Idealize.ShloMosaic Idealize.ShloMosaic.TcCoe Idealize.ShloMosaic.ValueIdx

theorem exp_apply {s : Shape} {φ : FTy} (v : FVec Ideal s φ) (i : s.Idx) : exp v i = Ideal.exp (v i) := rfl

theorem hostRowMax_apply {a n : ℕ} (x : FVec Ideal (⟨2, ![a, n]⟩ : Shape) .f32) {u : Shape} (init : u.Idx → Ideal .f32)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  refine congrArg (fun f => (Finset.univ : Finset (Fin n)).fold max (init (Shape.Idx.first hu)) f) (funext fun k => ?_)
  refine congrArg x (funext fun ax => Fin.ext ?_)
  match ax with
  | ⟨0, _⟩ => rfl
  | ⟨1, _⟩ => rfl

end Cert.LibSoftmaxRows

end
-- ==== Proof.LibContract.lean ====
import Idealize.ShloMosaic.PureOps.Ideal.Laws
import Idealize.ShloMosaic.Lib.ValueIdx

noncomputable section

namespace Cert.LibDense

open Idealize.ShloMosaic Idealize.ShloMosaic.ValueIdx

theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Pay0.lean ====
import proofs.«169444_j60773787238589_1_alg».proof.Proof.KI.Trip0
import proofs.«169444_j60773787238589_1_alg».proof.Proof.LibOnlineSoftmaxDefs
import proofs.«169444_j60773787238589_1_alg».proof.Proof.LibRowFold
import proofs.«169444_j60773787238589_1_alg».proof.Proof.LibKeepdims
import proofs.«169444_j60773787238589_1_alg».proof.Proof.LibSoftmaxRows
import proofs.«169444_j60773787238589_1_alg».proof.Proof.LibContract
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

theorem ofBits_ninf : Ideal.ofBits .f32 0xFF800000#32 = (⊥ : EReal) := by
  simp [Ideal.ofBits, Ideal.ieee]

theorem pay4_apply (i : S1024x1.Idx) : k0_pay4 (F := Ideal) i = (⊥ : EReal) := by
  unfold k0_pay4
  refine (congrFun (shapeCast_self _ _) i).trans ?_
  exact ofBits_ninf

theorem pay5_apply (i : S1024x1.Idx) : k0_pay5 (F := Ideal) i = (0 : EReal) := by
  unfold k0_pay5
  refine (congrFun (shapeCast_self _ _) i).trans ?_
  exact Ideal.ofBits_zero_f32

theorem pay6_apply (i : S1024x256.Idx) : k0_pay6 (F := Ideal) i = (0 : EReal) := by
  unfold k0_pay6
  refine (congrFun (shapeCast_self _ _) i).trans ?_
  exact Ideal.ofBits_zero_f32

def rowOf0 (s : Sc0 (F := Ideal)) (p : Fin 1024) (e : Fin 256) : EReal × EReal × EReal :=
  (s.1 (ix2 p (0 : Fin 1)), s.2.1 (ix2 p (0 : Fin 1)), s.2.2 (ix2 p e))

theorem init0_row (p : Fin 1024) (e : Fin 256) : rowOf0 (init0 (F := Ideal)) p e = (⊥, 0, 0) := by
  unfold rowOf0 init0
  exact Prod.ext (pay4_apply (ix2 p 0)) (Prod.ext (pay5_apply (ix2 p 0)) (pay6_apply (ix2 p e)))

theorem pay7_apply (x0 x1 : Vec Ideal S1024x256 .f32) (p j : Fin 1024) :
    k0_pay7 x0 x1 (ix2 p j) = ∑ d : Fin 256, x0 (ix2 p d) * x1 (ix2 j d) := by
  unfold k0_pay7
  refine (Cert.LibDense.matmul_plain_zero_apply 1024 256 1024 none x0 _ p j).trans ?_
  exact Finset.sum_congr rfl fun d _ => congrArg (fun t => x0 (ix2 p d) * t) (transpose_ix2_apply x1 _ d j)

theorem rowMax_ninf_apply {a b : ℕ} (src : FVec Ideal (⟨2, ![a, b]⟩ : Shape) .f32)
    (h : (⟨2, ![a, b]⟩ : Shape).Reduces [1] ⟨1, ![a]⟩) (hacc : (0xFF800000#32 : BitVec 32) = 0xFF800000#32) (i : Fin a) :
    multiReduction .maximumf [1] ⟨1, ![a]⟩ src 0xFF800000#32 h (.inl rfl) hacc (ix1 i)
      = (Finset.univ : Finset (Fin b)).fold max (⊥ : EReal) (fun k => src (ix2 i k)) :=
  (Cert.LibRowFold.rowMax_apply src 0xFF800000#32 h (.inl rfl) hacc i).trans
    (congrArg (fun z => (Finset.univ : Finset (Fin b)).fold max z (fun k => src (ix2 i k))) ofBits_ninf)

theorem pay8_apply (x0 x1 : Vec Ideal S1024x256 .f32) (m : Vec Ideal S1024x1 .f32) (p : Fin 1024) (u : Fin 1) :
    k0_pay8 x0 x1 m (ix2 p u)
      = max (m (ix2 p u)) (Spec.tileMax (fun j : Fin 1024 => ∑ d : Fin 256, x0 (ix2 p d) * x1 (ix2 j d))) := by
  unfold k0_pay8
  refine (maximumf_apply _ _ _).trans ?_
  refine congrArg (max (m (ix2 p u))) ?_
  refine (Cert.LibKeepdims.shapeCast_a_a1_apply _ _ p u).trans ?_
  refine (rowMax_ninf_apply _ _ _ p).trans ?_
  unfold Spec.tileMax
  exact congrArg (fun f => (Finset.univ : Finset (Fin 1024)).fold max (⊥ : EReal) f) (funext fun j => pay7_apply x0 x1 p j)

theorem pay9_apply (x0 x1 : Vec Ideal S1024x256 .f32) (m m' : Vec Ideal S1024x1 .f32) (i : S1024x1.Idx) :
    k0_pay9 x0 x1 m m' i = Ideal.exp (m' i - k0_pay8 x0 x1 m i) := rfl

theorem pay10_apply (x0 x1 : Vec Ideal S1024x256 .f32) (m : Vec Ideal S1024x1 .f32) (p j : Fin 1024) :
    k0_pay10 x0 x1 m (ix2 p j) = Ideal.exp (k0_pay7 x0 x1 (ix2 p j) - k0_pay8 x0 x1 m (ix2 p (0 : Fin 1))) := by
  unfold k0_pay10
  refine (Cert.LibSoftmaxRows.exp_apply _ _).trans ?_
  refine congrArg Ideal.exp ?_
  refine (subf_apply _ _ _).trans ?_
  exact congrArg (fun t => k0_pay7 x0 x1 (ix2 p j) - t) (Cert.LibKeepdims.broadcastTo_a1_ab_apply _ _ p j)

theorem rowSum_zero_apply {a b : ℕ} (src : FVec Ideal (⟨2, ![a, b]⟩ : Shape) .f32)
    (h : (⟨2, ![a, b]⟩ : Shape).Reduces [1] ⟨1, ![a]⟩) (hacc : (0x00000000#32 : BitVec 32) = 0x00000000#32) (i : Fin a) :
    multiReduction .add [1] ⟨1, ![a]⟩ src 0x00000000#32 h (.inl rfl) hacc (ix1 i) = ∑ k : Fin b, src (ix2 i k) :=
  Cert.LibKeepdims.rowSum_apply src 0x00000000#32 h (.inl rfl) hacc i

theorem pay11_apply (x0 x1 : Vec Ideal S1024x256 .f32) (m m' l : Vec Ideal S1024x1 .f32) (p : Fin 1024) (u : Fin 1) :
    k0_pay11 x0 x1 m m' l (ix2 p u)
      = k0_pay9 x0 x1 m m' (ix2 p u) * l (ix2 p u) + ∑ j : Fin 1024, k0_pay10 x0 x1 m (ix2 p j) := by
  unfold k0_pay11
  refine (congrFun (shapeCast_self _ _) (ix2 p u)).trans ?_
  refine (addf_apply _ _ _).trans ?_
  refine congrArg (fun t => k0_pay9 x0 x1 m m' (ix2 p u) * l (ix2 p u) + t) ?_
  refine (Cert.LibKeepdims.shapeCast_a_a1_apply _ _ p u).trans ?_
  exact rowSum_zero_apply _ _ _ p

theorem pay12_apply (x0 x1 : Vec Ideal S1024x256 .f32) (m m' : Vec Ideal S1024x1 .f32) (acc v : Vec Ideal S1024x256 .f32)
    (p : Fin 1024) (e : Fin 256) :
    k0_pay12 x0 x1 m m' acc v (ix2 p e)
      = k0_pay9 x0 x1 m m' (ix2 p (0 : Fin 1)) * acc (ix2 p e) + ∑ j : Fin 1024, k0_pay10 x0 x1 m (ix2 p j) * v (ix2 j e) := by
  unfold k0_pay12
  refine (addf_apply _ _ _).trans ?_
  refine congrArg₂ (fun s t => s + t) ?_ ?_
  · refine (mulf_apply _ _ _).trans ?_
    exact congrArg (fun t => t * acc (ix2 p e)) (Cert.LibKeepdims.broadcastTo_a1_ab_apply _ _ p e)
  · exact Cert.LibDense.matmul_plain_zero_apply 1024 1024 256 none _ v p e

theorem pay9_row (x0 x1 : Vec Ideal S1024x256 .f32) (m : Vec Ideal S1024x1 .f32) (p : Fin 1024) (u : Fin 1) :
    k0_pay9 x0 x1 m m (ix2 p u)
      = Ideal.exp (m (ix2 p u) - max (m (ix2 p u)) (Spec.tileMax (fun j : Fin 1024 => ∑ d : Fin 256, x0 (ix2 p d) * x1 (ix2 j d)))) :=
  (pay9_apply x0 x1 m m (ix2 p u)).trans
    (congrArg (fun t => Ideal.exp (m (ix2 p u) - t)) (pay8_apply x0 x1 m p u))

theorem pay10_row (x0 x1 : Vec Ideal S1024x256 .f32) (m : Vec Ideal S1024x1 .f32) (p j : Fin 1024) :
    k0_pay10 x0 x1 m (ix2 p j)
      = Ideal.exp ((∑ d : Fin 256, x0 (ix2 p d) * x1 (ix2 j d))
          - max (m (ix2 p (0 : Fin 1))) (Spec.tileMax (fun j : Fin 1024 => ∑ d : Fin 256, x0 (ix2 p d) * x1 (ix2 j d)))) :=
  (pay10_apply x0 x1 m p j).trans
    (congrArg₂ (fun s t => Ideal.exp (s - t)) (pay7_apply x0 x1 p j) (pay8_apply x0 x1 m p 0))

/-- At a query row and a value column one tile's update is the online-softmax update against that row's scores. -/
theorem step0_row (x0 x1 : Vec Ideal S1024x256 .f32) (x2 : Vec Ideal S1024x256 .f32) (s : Sc0 (F := Ideal)) (p : Fin 1024) (e : Fin 256) :
    rowOf0 (step0 x0 x1 x2 s) p e
      = Spec.upd (rowOf0 s p e) (fun j : Fin 1024 => ∑ d : Fin 256, x0 (ix2 p d) * x1 (ix2 j d)) (fun j : Fin 1024 => x2 (ix2 j e)) := by
  unfold rowOf0 step0 Spec.upd
  dsimp only
  refine Prod.ext ?_ (Prod.ext ?_ ?_)
  · dsimp only
    unfold k0_pay2
    refine (congrFun (shapeCast_self _ _) (ix2 p (0 : Fin 1))).trans ?_
    exact pay8_apply x0 x1 s.1 p 0
  · dsimp only
    refine (pay11_apply x0 x1 s.1 s.1 s.2.1 p 0).trans ?_
    refine congrArg₂ (fun a b => a + b) ?_ ?_
    · exact congrArg (fun t => t * s.2.1 (ix2 p (0 : Fin 1))) (pay9_row x0 x1 s.1 p 0)
    · exact Finset.sum_congr rfl fun j _ => pay10_row x0 x1 s.1 p j
  · dsimp only
    unfold k0_pay1
    refine (congrFun (shapeCast_self _ _) (ix2 p e)).trans ?_
    refine (pay12_apply x0 x1 s.1 s.1 s.2.2 x2 p e).trans ?_
    refine congrArg₂ (fun a b => a + b) ?_ ?_
    · exact congrArg (fun t => t * s.2.2 (ix2 p e)) (pay9_row x0 x1 s.1 p 0)
    · exact Finset.sum_congr rfl fun j _ => congrArg (fun t => t * x2 (ix2 j e)) (pay10_row x0 x1 s.1 p j)

theorem fin0_apply (s : Sc0 (F := Ideal)) (g : Vec Ideal S256x128 .f32) (p : Fin 1024) (c : Fin 128) :
    fin0 s g (ix2 p c) = max (∑ e : Fin 256, Ideal.div (s.2.2 (ix2 p e)) (s.2.1 (ix2 p (0 : Fin 1))) * g (ix2 e c)) 0 := by
  unfold fin0 k0_pay3
  refine (maximumf_apply _ _ _).trans ?_
  refine congrArg₂ max ?_ ?_
  · refine (Cert.LibDense.matmul_plain_zero_apply 1024 256 128 none _ g p c).trans ?_
    refine Finset.sum_congr rfl fun e _ => congrArg (fun t => t * g (ix2 e c)) ?_
    refine (divf_apply _ _ _).trans ?_
    exact congrArg (Ideal.div (s.2.2 (ix2 p e))) (Cert.LibKeepdims.broadcastTo_a1_ab_apply _ _ p e)
  · exact Ideal.ofBits_zero_f32

end Cert.KernelIdeal.Val

end
-- ==== Proof.LibOnlineSoftmax.lean ====
import proofs.«169444_j60773787238589_1_alg».proof.Proof.LibOnlineSoftmaxDefs
import Mathlib.Algebra.BigOperators.Fin
import Mathlib.Data.Finset.Fold
import Mathlib.Analysis.SpecialFunctions.Exp

noncomputable section

namespace Cert.Spec

open Idealize.ShloMosaic

variable {T B : ℕ}

theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

theorem exp_sub_coe (x y : ℝ) : Ideal.exp ((x : EReal) - (y : EReal)) = ((Real.exp (x - y) : ℝ) : EReal) := by
  rw [← EReal.coe_sub, Ideal.exp_coe]

theorem fold_max_coe {ι : Type*} (t : Finset ι) (ht : t.Nonempty) (f : ι → ℝ) :
    ∃ M : ℝ, t.fold max ⊥ (fun i => (f i : EReal)) = (M : EReal) ∧ (∀ i ∈ t, f i ≤ M) ∧ ∃ i ∈ t, f i = M := by
  induction ht using Finset.Nonempty.cons_induction with
  | singleton a =>
    refine ⟨f a, ?_, ?_, ?_⟩
    · rw [Finset.fold_singleton]; exact max_bot_right _
    · intro i hi; rw [Finset.mem_singleton] at hi; rw [hi]
    · exact ⟨a, Finset.mem_singleton_self a, rfl⟩
  | cons a t ha ht ih =>
    obtain ⟨M, hM, hle, i, hi, hiM⟩ := ih
    refine ⟨max (f a) M, ?_, ?_, ?_⟩
    · rw [Finset.fold_cons, hM, coe_max]
    · intro i hi
      rw [Finset.mem_cons] at hi
      rcases hi with rfl | hi
      · exact le_max_left _ _
      · exact (hle i hi).trans (le_max_right _ _)
    · rcases le_total (f a) M with h | h
      · exact ⟨i, Finset.mem_cons.2 (Or.inr hi), by rw [hiM, max_eq_right h]⟩
      · exact ⟨a, Finset.mem_cons_self a t, by rw [max_eq_left h]⟩

theorem tileMax_real (hB : 0 < B) (s : Fin B → ℝ) :
    ∃ tm : ℝ, tileMax (fun j => (s j : EReal)) = (tm : EReal) ∧ (∀ j, s j ≤ tm) ∧ ∃ j, s j = tm := by
  haveI : Nonempty (Fin B) := ⟨⟨0, hB⟩⟩
  obtain ⟨tm, h1, h2, j, _, h3⟩ := fold_max_coe (Finset.univ : Finset (Fin B)) Finset.univ_nonempty s
  exact ⟨tm, h1, fun j => h2 j (Finset.mem_univ j), j, h3⟩

theorem upd_bot (s v : Fin B → ℝ) (tm : ℝ) (htm : tileMax (fun j => (s j : EReal)) = (tm : EReal)) :
    upd ((⊥ : EReal), (0 : EReal), (0 : EReal)) (fun j => (s j : EReal)) (fun j => (v j : EReal)) =
      ((tm : EReal), ((∑ j : Fin B, Real.exp (s j - tm) : ℝ) : EReal),
        ((∑ j : Fin B, Real.exp (s j - tm) * v j : ℝ) : EReal)) := by
  have hmax : max (⊥ : EReal) (tileMax (fun j => (s j : EReal))) = (tm : EReal) := by
    rw [htm]; exact max_bot_left _
  refine Prod.ext hmax (Prod.ext ?_ ?_)
  · show Ideal.exp ((⊥ : EReal) - max (⊥ : EReal) (tileMax (fun j => (s j : EReal)))) * (0 : EReal)
        + ∑ j : Fin B, Ideal.exp ((s j : EReal) - max (⊥ : EReal) (tileMax (fun j => (s j : EReal))))
        = ((∑ j : Fin B, Real.exp (s j - tm) : ℝ) : EReal)
    rw [hmax, mul_zero, zero_add, coe_sum]
    exact Finset.sum_congr rfl (fun j _ => exp_sub_coe _ _)
  · show Ideal.exp ((⊥ : EReal) - max (⊥ : EReal) (tileMax (fun j => (s j : EReal)))) * (0 : EReal)
        + ∑ j : Fin B, Ideal.exp ((s j : EReal) - max (⊥ : EReal) (tileMax (fun j => (s j : EReal)))) * (v j : EReal)
        = ((∑ j : Fin B, Real.exp (s j - tm) * v j : ℝ) : EReal)
    rw [hmax, mul_zero, zero_add, coe_sum]
    exact Finset.sum_congr rfl (fun j _ => by rw [exp_sub_coe, EReal.coe_mul])

theorem upd_coe (m l a : ℝ) (s v : Fin B → ℝ) (tm : ℝ) (htm : tileMax (fun j => (s j : EReal)) = (tm : EReal)) :
    upd ((m : EReal), (l : EReal), (a : EReal)) (fun j => (s j : EReal)) (fun j => (v j : EReal)) =
      (((max m tm : ℝ) : EReal),
        ((Real.exp (m - max m tm) * l + ∑ j : Fin B, Real.exp (s j - max m tm) : ℝ) : EReal),
        ((Real.exp (m - max m tm) * a + ∑ j : Fin B, Real.exp (s j - max m tm) * v j : ℝ) : EReal)) := by
  have hmax : max (m : EReal) (tileMax (fun j => (s j : EReal))) = ((max m tm : ℝ) : EReal) := by
    rw [htm, coe_max]
  refine Prod.ext hmax (Prod.ext ?_ ?_)
  · show Ideal.exp ((m : EReal) - max (m : EReal) (tileMax (fun j => (s j : EReal)))) * (l : EReal)
        + ∑ j : Fin B, Ideal.exp ((s j : EReal) - max (m : EReal) (tileMax (fun j => (s j : EReal))))
        = ((Real.exp (m - max m tm) * l + ∑ j : Fin B, Real.exp (s j - max m tm) : ℝ) : EReal)
    rw [hmax, exp_sub_coe, EReal.coe_add, EReal.coe_mul, coe_sum]
    congr 1
  · show Ideal.exp ((m : EReal) - max (m : EReal) (tileMax (fun j => (s j : EReal)))) * (a : EReal)
        + ∑ j : Fin B, Ideal.exp ((s j : EReal) - max (m : EReal) (tileMax (fun j => (s j : EReal)))) * (v j : EReal)
        = ((Real.exp (m - max m tm) * a + ∑ j : Fin B, Real.exp (s j - max m tm) * v j : ℝ) : EReal)
    rw [hmax, exp_sub_coe, EReal.coe_add, EReal.coe_mul, coe_sum]
    congr 1

def seen (T n : ℕ) : Finset (Fin T) := Finset.univ.filter (fun k => k.val < n)

theorem mem_seen {n : ℕ} (k : Fin T) : k ∈ seen T n ↔ k.val < n := by
  simp only [seen, Finset.mem_filter, Finset.mem_univ, true_and]

theorem seen_zero : seen T 0 = ∅ := by
  ext k; simp only [mem_seen, Nat.not_lt_zero, Finset.notMem_empty]

theorem notMem_seen_self {n : ℕ} (h : n < T) : (⟨n, h⟩ : Fin T) ∉ seen T n := by
  rw [mem_seen]; exact lt_irrefl n

theorem seen_succ {n : ℕ} (h : n < T) : seen T (n + 1) = insert (⟨n, h⟩ : Fin T) (seen T n) := by
  ext k
  rw [Finset.mem_insert, mem_seen, mem_seen]
  constructor
  · intro hk
    rcases Nat.lt_succ_iff_lt_or_eq.1 hk with h1 | h1
    · exact Or.inr h1
    · exact Or.inl (Fin.ext h1)
  · rintro (rfl | h1)
    · exact Nat.lt_succ_self _
    · exact Nat.lt_succ_of_lt h1

theorem seen_self : seen T T = Finset.univ := by
  ext k; simp only [mem_seen, k.isLt, Finset.mem_univ]

theorem rescale_sum (t : Finset (Fin T)) (s : Fin T → Fin B → ℝ) (m m' : ℝ) :
    Real.exp (m - m') * ∑ k ∈ t, ∑ j : Fin B, Real.exp (s k j - m) = ∑ k ∈ t, ∑ j : Fin B, Real.exp (s k j - m') := by
  rw [Finset.mul_sum]
  refine Finset.sum_congr rfl (fun k _ => ?_)
  rw [Finset.mul_sum]
  refine Finset.sum_congr rfl (fun j _ => ?_)
  rw [← Real.exp_add]
  congr 1
  ring

theorem rescale_wsum (t : Finset (Fin T)) (s v : Fin T → Fin B → ℝ) (m m' : ℝ) :
    Real.exp (m - m') * ∑ k ∈ t, ∑ j : Fin B, Real.exp (s k j - m) * v k j
      = ∑ k ∈ t, ∑ j : Fin B, Real.exp (s k j - m') * v k j := by
  rw [Finset.mul_sum]
  refine Finset.sum_congr rfl (fun k _ => ?_)
  rw [Finset.mul_sum]
  refine Finset.sum_congr rfl (fun j _ => ?_)
  rw [← mul_assoc, ← Real.exp_add]
  congr 2
  ring

/-- After n + 1 tiles the triple is (max of the scores seen, ∑ exp (s - max), ∑ exp (s - max) · v); the first update's factor exp (-inf - m') is 0. -/
theorem run_inv (hB : 0 < B) (s v : Fin T → Fin B → ℝ) (n : ℕ) (hn : n < T) :
    ∃ m : ℝ, run (fun k j => (s k j : EReal)) (fun k j => (v k j : EReal)) (n + 1)
        = ((m : EReal), ((∑ k ∈ seen T (n + 1), ∑ j : Fin B, Real.exp (s k j - m) : ℝ) : EReal),
            ((∑ k ∈ seen T (n + 1), ∑ j : Fin B, Real.exp (s k j - m) * v k j : ℝ) : EReal))
      ∧ (∀ k ∈ seen T (n + 1), ∀ j, s k j ≤ m) ∧ ∃ k ∈ seen T (n + 1), ∃ j, s k j = m := by
  induction n with
  | zero =>
    obtain ⟨tm, htm, hle, j0, hj0⟩ := tileMax_real hB (s ⟨0, hn⟩)
    refine ⟨tm, ?_, ?_, ?_⟩
    · rw [run_succ _ _ 0 hn, run_zero]
      rw [seen_succ hn, seen_zero]
      rw [Finset.sum_insert (Finset.notMem_empty _), Finset.sum_insert (Finset.notMem_empty _),
        Finset.sum_empty, Finset.sum_empty, add_zero, add_zero]
      exact upd_bot (s ⟨0, hn⟩) (v ⟨0, hn⟩) tm htm
    · intro k hk j
      rw [seen_succ hn, seen_zero, Finset.mem_insert] at hk
      rcases hk with rfl | hk
      · exact hle j
      · exact absurd hk (Finset.notMem_empty _)
    · exact ⟨⟨0, hn⟩, (mem_seen _).2 (Nat.lt_succ_self 0), j0, hj0⟩
  | succ n ih =>
    obtain ⟨m, hrun, hle, k0, hk0, j0, hj0⟩ := ih (Nat.lt_of_succ_lt hn)
    obtain ⟨tm, htm, htle, j1, hj1⟩ := tileMax_real hB (s ⟨n + 1, hn⟩)
    refine ⟨max m tm, ?_, ?_, ?_⟩
    · rw [run_succ _ _ (n + 1) hn, hrun]
      rw [seen_succ hn, Finset.sum_insert (notMem_seen_self hn), Finset.sum_insert (notMem_seen_self hn)]
      rw [← rescale_sum (seen T (n + 1)) s m (max m tm), ← rescale_wsum (seen T (n + 1)) s v m (max m tm)]
      rw [add_comm (∑ j : Fin B, Real.exp (s ⟨n + 1, hn⟩ j - max m tm)),
        add_comm (∑ j : Fin B, Real.exp (s ⟨n + 1, hn⟩ j - max m tm) * v ⟨n + 1, hn⟩ j)]
      exact upd_coe m _ _ (s ⟨n + 1, hn⟩) (v ⟨n + 1, hn⟩) tm htm
    · intro k hk j
      rw [seen_succ hn, Finset.mem_insert] at hk
      rcases hk with rfl | hk
      · exact (htle j).trans (le_max_right _ _)
      · exact (hle k hk j).trans (le_max_left _ _)
    · rcases le_total m tm with h | h
      · exact ⟨⟨n + 1, hn⟩, (mem_seen _).2 (Nat.lt_succ_self _), j1, by rw [hj1, max_eq_right h]⟩
      · refine ⟨k0, ?_, j0, by rw [hj0, max_eq_left h]⟩
        rw [seen_succ hn]; exact Finset.mem_insert_of_mem hk0

theorem rowMax_spec (hT : 0 < T) (hB : 0 < B) (s : Fin T → Fin B → ℝ) :
    ∃ M : ℝ, rowMax (fun k j => (s k j : EReal)) = (M : EReal) ∧ (∀ k j, s k j ≤ M) ∧ ∃ k j, s k j = M := by
  haveI : Nonempty (Fin T) := ⟨⟨0, hT⟩⟩
  haveI : Nonempty (Fin B) := ⟨⟨0, hB⟩⟩
  obtain ⟨M, h1, h2, kj, _, h3⟩ :=
    fold_max_coe (Finset.univ : Finset (Fin T × Fin B)) Finset.univ_nonempty (fun kj => s kj.1 kj.2)
  exact ⟨M, h1, fun k j => h2 (k, j) (Finset.mem_univ _), kj.1, kj.2, h3⟩

theorem rowMax_real (hT : 0 < T) (hB : 0 < B) (s : Fin T → Fin B → ℝ) :
    ∃ M : ℝ, rowMax (fun k j => (s k j : EReal)) = (M : EReal) := by
  obtain ⟨M, h, _⟩ := rowMax_spec hT hB s
  exact ⟨M, h⟩

theorem rowDen_eq (s : Fin T → Fin B → ℝ) (M : ℝ) (hM : rowMax (fun k j => (s k j : EReal)) = (M : EReal)) :
    rowDen (fun k j => (s k j : EReal)) = ((∑ k : Fin T, ∑ j : Fin B, Real.exp (s k j - M) : ℝ) : EReal) := by
  show ∑ k : Fin T, ∑ j : Fin B, Ideal.exp ((s k j : EReal) - rowMax (fun k j => (s k j : EReal)))
      = ((∑ k : Fin T, ∑ j : Fin B, Real.exp (s k j - M) : ℝ) : EReal)
  rw [hM, coe_sum]
  refine Finset.sum_congr rfl (fun k _ => ?_)
  rw [coe_sum]
  exact Finset.sum_congr rfl (fun j _ => exp_sub_coe _ _)

theorem den_pos (hT : 0 < T) (hB : 0 < B) (s : Fin T → Fin B → ℝ) (M : ℝ) :
    0 < ∑ k : Fin T, ∑ j : Fin B, Real.exp (s k j - M) := by
  haveI : Nonempty (Fin T) := ⟨⟨0, hT⟩⟩
  haveI : Nonempty (Fin B) := ⟨⟨0, hB⟩⟩
  exact Finset.sum_pos (fun k _ => Finset.sum_pos (fun j _ => Real.exp_pos _) Finset.univ_nonempty)
    Finset.univ_nonempty

theorem rowDen_real (hT : 0 < T) (hB : 0 < B) (s : Fin T → Fin B → ℝ) :
    ∃ L : ℝ, 0 < L ∧ rowDen (fun k j => (s k j : EReal)) = (L : EReal) := by
  obtain ⟨M, hM⟩ := rowMax_real hT hB s
  exact ⟨_, den_pos hT hB s M, rowDen_eq s M hM⟩

theorem wt_eq (s : Fin T → Fin B → ℝ) (M L : ℝ) (hM : rowMax (fun k j => (s k j : EReal)) = (M : EReal))
    (hL : rowDen (fun k j => (s k j : EReal)) = (L : EReal)) (hL0 : L ≠ 0) (k : Fin T) (j : Fin B) :
    wt (fun k j => (s k j : EReal)) k j = ((Real.exp (s k j - M) * (1 / L) : ℝ) : EReal) := by
  show Ideal.div (Ideal.exp ((s k j : EReal) - rowMax (fun k j => (s k j : EReal)))) (rowDen (fun k j => (s k j : EReal)))
      = ((Real.exp (s k j - M) * (1 / L) : ℝ) : EReal)
  rw [hM, hL, Ideal.div_coe hL0, exp_sub_coe, EReal.coe_mul]

theorem wsum_eq (s v : Fin T → Fin B → ℝ) (M L : ℝ) (hM : rowMax (fun k j => (s k j : EReal)) = (M : EReal))
    (hL : rowDen (fun k j => (s k j : EReal)) = (L : EReal)) (hL0 : L ≠ 0) :
    (∑ k : Fin T, ∑ j : Fin B, wt (fun k j => (s k j : EReal)) k j * (v k j : EReal))
      = ((∑ k : Fin T, ∑ j : Fin B, Real.exp (s k j - M) * (1 / L) * v k j : ℝ) : EReal) := by
  rw [coe_sum]
  refine Finset.sum_congr rfl (fun k _ => ?_)
  rw [coe_sum]
  refine Finset.sum_congr rfl (fun j _ => ?_)
  rw [wt_eq s M L hM hL hL0 k j, ← EReal.coe_mul]

theorem wsum_real (hT : 0 < T) (hB : 0 < B) (s v : Fin T → Fin B → ℝ) :
    ∃ r : ℝ, (∑ k : Fin T, ∑ j : Fin B, wt (fun k j => (s k j : EReal)) k j * (v k j : EReal)) = (r : EReal) := by
  obtain ⟨M, hM⟩ := rowMax_real hT hB s
  obtain ⟨L, hL0, hL⟩ := rowDen_real hT hB s
  exact ⟨_, wsum_eq s v M L hM hL (ne_of_gt hL0)⟩

/-- After the last tile numerator / denominator is the softmax-weighted sum: the denominator is a positive real, so the quotient distributes. -/
theorem online_eq (hT : 0 < T) (hB : 0 < B) (s v : Fin T → Fin B → ℝ) :
    Ideal.div (run (fun k j => (s k j : EReal)) (fun k j => (v k j : EReal)) T).2.2
        (run (fun k j => (s k j : EReal)) (fun k j => (v k j : EReal)) T).2.1
      = ∑ k : Fin T, ∑ j : Fin B, wt (fun k j => (s k j : EReal)) k j * (v k j : EReal) := by
  obtain ⟨n, rfl⟩ : ∃ n, T = n + 1 := Nat.exists_eq_succ_of_ne_zero (Nat.pos_iff_ne_zero.1 hT)
  obtain ⟨M, hM, hMle, kM, jM, hMeq⟩ := rowMax_spec hT hB s
  obtain ⟨m, hrun, hle, k0, _, j0, hj0⟩ := run_inv hB s v n (Nat.lt_succ_self n)

  have hmM : m = M := by
    apply le_antisymm
    · rw [← hj0]; exact hMle k0 j0
    · rw [← hMeq]; exact hle kM ((mem_seen _).2 kM.isLt) jM
  subst hmM
  rw [seen_self] at hrun
  have hL : 0 < ∑ k : Fin (n + 1), ∑ j : Fin B, Real.exp (s k j - m) := den_pos hT hB s m
  rw [hrun]
  show Ideal.div ((∑ k : Fin (n + 1), ∑ j : Fin B, Real.exp (s k j - m) * v k j : ℝ) : EReal)
      ((∑ k : Fin (n + 1), ∑ j : Fin B, Real.exp (s k j - m) : ℝ) : EReal) = _
  rw [Ideal.div_coe (ne_of_gt hL), wsum_eq s v m _ hM (rowDen_eq s m hM) (ne_of_gt hL), ← EReal.coe_mul]
  congr 1
  rw [Finset.sum_mul]
  refine Finset.sum_congr rfl (fun k _ => ?_)
  rw [Finset.sum_mul]
  refine Finset.sum_congr rfl (fun j _ => ?_)
  ring

end Cert.Spec

end
-- ==== Proof.LibFoldMax.lean ====
import Mathlib.Data.Finset.Fold

namespace Cert.LibFoldMax

theorem foldMax_le_of_range {A B β : Type} [LinearOrder β] (s : Finset A) (t : Finset B) (e : β) (f : A → β) (g : B → β)
    (h : ∀ a ∈ s, ∃ b ∈ t, f a ≤ g b) : s.fold max e f ≤ t.fold max e g := by
  rw [Finset.fold_max_le]
  refine ⟨(Finset.le_fold_max _).mpr (Or.inl le_rfl), fun a ha => ?_⟩
  obtain ⟨b, hb, hle⟩ := h a ha
  exact (Finset.le_fold_max _).mpr (Or.inr ⟨b, hb, hle⟩)

/-- A fold of max depends only on the set of values folded, not on how they are indexed. -/
theorem foldMax_eq_of_range {A B β : Type} [LinearOrder β] (s : Finset A) (t : Finset B) (e : β) (f : A → β) (g : B → β)
    (hfg : ∀ a ∈ s, ∃ b ∈ t, f a = g b) (hgf : ∀ b ∈ t, ∃ a ∈ s, g b = f a) : s.fold max e f = t.fold max e g :=
  le_antisymm (foldMax_le_of_range s t e f g fun a ha => by obtain ⟨b, hb, h⟩ := hfg a ha; exact ⟨b, hb, h.le⟩)
    (foldMax_le_of_range t s e g f fun b hb => by obtain ⟨a, ha, h⟩ := hgf b hb; exact ⟨a, ha, h.le⟩)

end Cert.LibFoldMax
-- ==== Proof.LibTiles.lean ====
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b consecutive indices is the sum over a tiles of the sums over a tile's b indices. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

end Cert.LibTiles
-- ==== Proof.Val0.lean ====
import proofs.«169444_j60773787238589_1_alg».proof.Proof.KI.Outs0
import proofs.«169444_j60773787238589_1_alg».proof.Proof.RowSpec
import proofs.«169444_j60773787238589_1_alg».proof.Proof.Pay0
import proofs.«169444_j60773787238589_1_alg».proof.Proof.LibOnlineSoftmax
import proofs.«169444_j60773787238589_1_alg».proof.Proof.LibRowFold
import proofs.«169444_j60773787238589_1_alg».proof.Proof.LibKeepdims
import proofs.«169444_j60773787238589_1_alg».proof.Proof.LibSoftmaxRows
import proofs.«169444_j60773787238589_1_alg».proof.Proof.LibContract
import proofs.«169444_j60773787238589_1_alg».proof.Proof.LibFoldMax
import proofs.«169444_j60773787238589_1_alg».proof.Proof.LibTiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem idx_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

abbrev xA (c : Dev nD) : RowSpec.X := V c main_arg0
abbrev gA (c : Dev nD) : RowSpec.G1 := V c main_arg2

theorem qb0_apply (c : Dev nD) (t : Fin cfg0.N) (q : Fin 8) (hq : t.val / 8 = q.val) (p : Fin 1024) (d : Fin 256) :
    qb0 V c t (ix2 p d) = xA V c (ix2 (RowSpec.key q p) d) := by
  obtain ⟨e0, e1, -⟩ := idx_facts0 t
  unfold qb0 iblk0
  rw [View.read_apply]
  show V c main_arg0 _ = V c main_arg0 _
  congr 1
  funext a
  apply Fin.ext
  match a with
  | ⟨0, _⟩ => show win0_0.index t (0 : Fin 2) * 1024 + 1 * p.val = q.val * 1024 + p.val; rw [e0, hq]; omega
  | ⟨1, _⟩ => show win0_0.index t (1 : Fin 2) * 256 + 1 * d.val = d.val; rw [e1]; omega

theorem kb0_apply (c : Dev nD) (t : Fin cfg0.N) (k : Fin 8) (hk : t.val % 8 = k.val) (j : Fin 1024) (d : Fin 256) :
    kb0 V c t (ix2 j d) = xA V c (ix2 (RowSpec.key k j) d) := by
  obtain ⟨-, -, e0, e1, -⟩ := idx_facts0 t
  unfold kb0 iblk0
  rw [View.read_apply]
  show V c main_arg0 _ = V c main_arg0 _
  congr 1
  funext a
  apply Fin.ext
  match a with
  | ⟨0, _⟩ => show win0_1.index t (0 : Fin 2) * 1024 + 1 * j.val = k.val * 1024 + j.val; rw [e0, hk]; omega
  | ⟨1, _⟩ => show win0_1.index t (1 : Fin 2) * 256 + 1 * d.val = d.val; rw [e1]; omega

theorem vb0_apply (c : Dev nD) (t : Fin cfg0.N) (k : Fin 8) (hk : t.val % 8 = k.val) (j : Fin 1024) (e : Fin 256) :
    vb0 V c t (ix2 j e) = xA V c (ix2 (RowSpec.key k j) e) := by
  obtain ⟨-, -, -, -, e0, e1, -⟩ := idx_facts0 t
  unfold vb0 iblk0
  rw [View.read_apply]
  show V c main_arg0 _ = V c main_arg0 _
  congr 1
  funext a
  apply Fin.ext
  match a with
  | ⟨0, _⟩ => show win0_2.index t (0 : Fin 2) * 1024 + 1 * j.val = k.val * 1024 + j.val; rw [e0, hk]; omega
  | ⟨1, _⟩ => show win0_2.index t (1 : Fin 2) * 256 + 1 * e.val = e.val; rw [e1]; omega

theorem gb0_apply (c : Dev nD) (t : Fin cfg0.N) (e : Fin 256) (c' : Fin 128) :
    gb0 V c t (ix2 e c') = gA V c (ix2 e c') := by
  obtain ⟨-, -, -, -, -, -, e0, e1, -⟩ := idx_facts0 t
  unfold gb0 iblk0
  rw [View.read_apply]
  show V c main_arg2 _ = V c main_arg2 _
  congr 1
  funext a
  apply Fin.ext
  match a with
  | ⟨0, _⟩ => show win0_3.index t (0 : Fin 2) * 256 + 1 * e.val = e.val; rw [e0]; omega
  | ⟨1, _⟩ => show win0_3.index t (1 : Fin 2) * 128 + 1 * c'.val = c'.val; rw [e1]; omega

theorem tile_scores (c : Dev nD) (t : Fin cfg0.N) (q k : Fin 8) (hq : t.val / 8 = q.val) (hk : t.val % 8 = k.val) (p : Fin 1024) :
    (fun j : Fin 1024 => ∑ d : Fin 256, qb0 V c t (ix2 p d) * kb0 V c t (ix2 j d))
      = RowSpec.score (xA V c) (RowSpec.key q p) k := by
  funext j
  unfold RowSpec.score
  refine Finset.sum_congr rfl fun d _ => ?_
  rw [qb0_apply V c t q hq p d, kb0_apply V c t k hk j d]

theorem tile_vals (c : Dev nD) (t : Fin cfg0.N) (k : Fin 8) (hk : t.val % 8 = k.val) (e : Fin 256) :
    (fun j : Fin 1024 => vb0 V c t (ix2 j e)) = RowSpec.xcol (xA V c) e k := by
  funext j
  unfold RowSpec.xcol
  exact vb0_apply V c t k hk j e

theorem scAt0_congr (c : Dev nD) (n m : ℕ) (h : n = m) (hn : n < cfg0.N) (hm : m < cfg0.N) :
    scAt0 V c n hn = scAt0 V c m hm := by
  subst h; rfl

/-- By induction on the key tile, a row's carried triple after tile k is the tiled computation's after k + 1 tiles. -/
theorem row_run (c : Dev nD) (q : Fin 8) (p : Fin 1024) (e : Fin 256) :
    ∀ (kv : ℕ) (hkv : kv < 8) (ht : 8 * q.val + kv < cfg0.N),
      rowOf0 (scAt0 V c (8 * q.val + kv) ht) p e
        = Spec.run (RowSpec.score (xA V c) (RowSpec.key q p)) (RowSpec.xcol (xA V c) e) (kv + 1)
  | 0, hkv, ht => by
    have h0 : (⟨8 * q.val + 0, ht⟩ : Fin cfg0.N).val % 8 = 0 := by show (8 * q.val + 0) % 8 = 0; omega
    have hq : (⟨8 * q.val + 0, ht⟩ : Fin cfg0.N).val / 8 = q.val := by show (8 * q.val + 0) / 8 = q.val; omega
    refine (congrArg (fun s => rowOf0 s p e) (scAt0_reset V c ⟨8 * q.val + 0, ht⟩ h0)).trans ?_
    refine (step0_row _ _ _ _ p e).trans ?_
    rw [init0_row, Spec.run_succ _ _ 0 (by omega), Spec.run_zero]
    exact congrArg₂ (Spec.upd _) (tile_scores V c _ q ⟨0, by omega⟩ hq h0 p) (tile_vals V c _ ⟨0, by omega⟩ h0 e)
  | kv + 1, hkv, ht => by
    have hN : 8 * q.val + (kv + 1) < 64 := lt_of_lt_of_eq ht N_0
    have hk : (⟨8 * q.val + (kv + 1), ht⟩ : Fin cfg0.N).val % 8 = kv + 1 := by show (8 * q.val + (kv + 1)) % 8 = kv + 1; omega
    have h0 : ¬ (⟨8 * q.val + (kv + 1), ht⟩ : Fin cfg0.N).val % 8 = 0 := by rw [hk]; omega
    have hq : (⟨8 * q.val + (kv + 1), ht⟩ : Fin cfg0.N).val / 8 = q.val := by show (8 * q.val + (kv + 1)) / 8 = q.val; omega
    have ht' : 8 * q.val + kv < cfg0.N := lt_of_lt_of_eq (by omega) N_0.symm
    refine (congrArg (fun s => rowOf0 s p e) (scAt0_step V c ⟨8 * q.val + (kv + 1), ht⟩ h0)).trans ?_
    refine (step0_row _ _ _ _ p e).trans ?_
    rw [scAt0_congr V c _ (8 * q.val + kv) (by show 8 * q.val + (kv + 1) - 1 = 8 * q.val + kv; omega) _ ht',
      row_run c q p e kv (by omega) ht', Spec.run_succ _ _ (kv + 1) hkv]
    exact congrArg₂ (Spec.upd _) (tile_scores V c _ q ⟨kv + 1, hkv⟩ hq hk p) (tile_vals V c _ ⟨kv + 1, hkv⟩ hk e)

theorem fin_row (c : Dev nD) (t : Fin cfg0.N) (q : Fin 8) (hq : t.val / 8 = q.val) (h7 : t.val % 8 = 7) (p : Fin 1024) (c' : Fin 128) :
    fin0 (scAt0 V c t.val t.isLt) (gb0 V c t) (ix2 p c')
      = RowSpec.hidK (xA V c) (gA V c) (ix2 (RowSpec.key q p) c') := by
  have hN : t.val < 64 := lt_of_lt_of_eq t.isLt N_0
  have ht : 8 * q.val + 7 < cfg0.N := lt_of_lt_of_eq (by omega) N_0.symm
  rw [scAt0_congr V c t.val (8 * q.val + 7) (by omega) t.isLt ht, fin0_apply]
  show max _ 0 = max (∑ e : Fin 256, RowSpec.adjxK (xA V c) (RowSpec.key q p) e * gA V c (ix2 e c')) 0
  congr 1
  refine Finset.sum_congr rfl fun e _ => ?_
  have h := row_run V c q p e 7 (by omega) ht
  rw [gb0_apply]
  unfold RowSpec.adjxK
  rw [← h]
  rfl

theorem flushed0_eq (c : Dev nD) (t : Fin cfg0.N) (hf : (cfg0.win 4).flush t = true) :
    (dat0 (F := Ideal) V c).flushed 4 t
      = ((cfg0.win 4).blk t).view.read (Elt Ideal) (RowSpec.hidK (xA V c) (gA V c)) := by
  have h7 : t.val % 8 = 7 := (flush0_4 t).mp hf
  have hN : t.val < 64 := lt_of_lt_of_eq t.isLt N_0
  obtain ⟨-, -, -, -, -, -, -, -, e0, e1⟩ := idx_facts0 t
  show (cfg0.win 4).cut (grid0.coords t) ((dat0 V c).after 4 t) = _
  rw [after0_4]
  funext j
  rw [View.read_apply]
  have h0 : (j 0).val < 1024 := (j 0).isLt
  have h1 : (j 1).val < 128 := (j 1).isLt
  refine Eq.trans (b := fin0 (scAt0 V c t.val t.isLt) (gb0 V c t) (ix2 (⟨(j 0).val, h0⟩ : Fin 1024) (⟨(j 1).val, h1⟩ : Fin 128))) ?_ ?_
  · show fin0 _ _ ((cfg0.win 4).xinj (grid0.coords t) j) = _
    congr 1
    funext a
    match a with
    | ⟨0, _⟩ => rfl
    | ⟨1, _⟩ => rfl
  · rw [fin_row V c t ⟨t.val / 8, by omega⟩ rfl h7]
    show RowSpec.hidK (xA V c) (gA V c) _ = RowSpec.hidK (xA V c) (gA V c) _
    congr 1
    funext a
    apply Fin.ext
    match a with
    | ⟨0, _⟩ => show t.val / 8 * 1024 + (j 0).val = win0_4.index t (0 : Fin 2) * 1024 + 1 * (j 0).val; rw [e0]; omega
    | ⟨1, _⟩ => show (j 1).val = win0_4.index t (1 : Fin 2) * 128 + 1 * (j 1).val; rw [e1]; omega

theorem mem_blk0 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v0).slice (win0_4.rect t)).set ↔ _
  rw [View.set_slice_whole, Rect.mem_set_unit]
  exact Iff.rfl

/-- Each block of the first pass's output is the quotient formed after its query tile's last key tile: the array is the hidden array. -/
theorem arrAt0 (c : Dev nD) :
    ((dat0 (F := Ideal) V c).arrAt 4 cfg0.N : S8192x128.Idx → EReal) = RowSpec.hidK (V c main_arg0) (V c main_arg2) :=
  (dat0 (F := Ideal) V c).arrAt_eq_of_cover 4 (RowSpec.hidK (xA V c) (gA V c)) (flushed0_eq V c) fun i => by
    have hi0 : (i 0).val < 8192 := (i 0).isLt
    have hi1 : (i 1).val < 128 := (i 1).isLt
    have htN : 8 * ((i 0).val / 1024) + 7 < cfg0.N := lt_of_lt_of_eq (by omega) N_0.symm
    have h7 : (⟨8 * ((i 0).val / 1024) + 7, htN⟩ : Fin cfg0.N).val % 8 = 7 := by
      show (8 * ((i 0).val / 1024) + 7) % 8 = 7; omega
    obtain ⟨-, -, -, -, -, -, -, -, e0, e1⟩ := idx_facts0 ⟨8 * ((i 0).val / 1024) + 7, htN⟩
    refine ⟨⟨8 * ((i 0).val / 1024) + 7, htN⟩, (flush0_4 _).mpr h7, ?_⟩
    rw [mem_blk0]
    intro a
    match a with
    | ⟨0, _⟩ =>
      show win0_4.index ⟨8 * ((i 0).val / 1024) + 7, htN⟩ (0 : Fin 2) * 1024 ≤ (i 0).val
        ∧ (i 0).val < win0_4.index ⟨8 * ((i 0).val / 1024) + 7, htN⟩ (0 : Fin 2) * 1024 + 1024
      rw [e0]
      show (8 * ((i 0).val / 1024) + 7) / 8 * 1024 ≤ (i 0).val ∧ (i 0).val < (8 * ((i 0).val / 1024) + 7) / 8 * 1024 + 1024
      omega
    | ⟨1, _⟩ =>
      show win0_4.index ⟨8 * ((i 0).val / 1024) + 7, htN⟩ (1 : Fin 2) * 128 ≤ (i 1).val
        ∧ (i 1).val < win0_4.index ⟨8 * ((i 0).val / 1024) + 7, htN⟩ (1 : Fin 2) * 128 + 128
      rw [e1]
      omega

end Cert.KernelIdeal.Val

end
-- ==== Proof.Pay1.lean ====
import proofs.«169444_j60773787238589_1_alg».proof.Proof.Pay0
import proofs.«169444_j60773787238589_1_alg».proof.Proof.KI.Trip1

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

def rowOf1 (s : Sc1 (F := Ideal)) (p : Fin 1024) (e : Fin 128) : EReal × EReal × EReal :=
  (s.1 (ix2 p (0 : Fin 1)), s.2.1 (ix2 p (0 : Fin 1)), s.2.2 (ix2 p e))

theorem pay6_apply_r1 (i : S1024x128.Idx) : k1_pay6 (F := Ideal) i = 0 := by
  unfold k1_pay6
  exact (congrFun (shapeCast_self _ _) i).trans Ideal.ofBits_zero_f32

/-- Scores, maxima, rescaling factors and weights are the first pass's functions; only the 128-column numerator is read anew. -/
theorem pay12_apply_r1 (x0 x1 : Vec Ideal S1024x256 .f32) (m m' : Vec Ideal S1024x1 .f32) (acc v : Vec Ideal S1024x128 .f32)
    (p : Fin 1024) (e : Fin 128) :
    k1_pay12 x0 x1 m m' acc v (ix2 p e)
      = k1_pay9 x0 x1 m m' (ix2 p (0 : Fin 1)) * acc (ix2 p e) + ∑ j : Fin 1024, k1_pay10 x0 x1 m (ix2 p j) * v (ix2 j e) := by
  unfold k1_pay12
  refine (addf_apply _ _ _).trans ?_
  refine congrArg₂ (· + ·) ?_ ?_
  · refine (mulf_apply _ _ _).trans ?_
    exact congrArg (fun t => t * acc (ix2 p e)) (Cert.LibKeepdims.broadcastTo_a1_ab_apply _ _ p e)
  · refine (Cert.LibDense.matmul_plain_zero_apply 1024 1024 128 none (k1_pay10 x0 x1 m) _ p e).trans ?_
    refine Finset.sum_congr rfl fun j _ => ?_
    exact congrArg (fun t => k1_pay10 x0 x1 m (ix2 p j) * t) (congrFun (shapeCast_self v _) (ix2 j e))

theorem init1_row (p : Fin 1024) (e : Fin 128) : rowOf1 (init1 (F := Ideal)) p e = (⊥, 0, 0) :=
  Prod.ext (pay4_apply (ix2 p 0)) (Prod.ext (pay5_apply (ix2 p 0)) (pay6_apply_r1 (ix2 p e)))

theorem step1_row (x0 x1 : Vec Ideal S1024x256 .f32) (x2 : Vec Ideal S1024x128 .f32) (s : Sc1 (F := Ideal)) (p : Fin 1024) (e : Fin 128) :
    rowOf1 (step1 x0 x1 x2 s) p e
      = Spec.upd (rowOf1 s p e) (fun j : Fin 1024 => ∑ d : Fin 256, x0 (ix2 p d) * x1 (ix2 j d)) (fun j : Fin 1024 => x2 (ix2 j e)) := by
  unfold Spec.upd
  refine Prod.ext ?_ (Prod.ext ?_ ?_)
  · show k1_pay2 (k1_pay8 x0 x1 s.1) (ix2 p (0 : Fin 1)) = _
    unfold k1_pay2
    exact (congrFun (shapeCast_self _ _) _).trans (pay8_apply x0 x1 s.1 p 0)
  · show k1_pay11 x0 x1 s.1 s.1 s.2.1 (ix2 p (0 : Fin 1)) = _
    refine (pay11_apply x0 x1 s.1 s.1 s.2.1 p 0).trans ?_
    refine congrArg₂ (· + ·) ?_ ?_
    · exact congrArg (fun t => t * s.2.1 (ix2 p (0 : Fin 1))) (pay9_row x0 x1 s.1 p 0)
    · exact Finset.sum_congr rfl fun j _ => pay10_row x0 x1 s.1 p j
  · show k1_pay1 (k1_pay12 x0 x1 s.1 s.1 s.2.2 x2) (ix2 p e) = _
    unfold k1_pay1
    refine (congrFun (shapeCast_self _ _) _).trans ?_
    refine (pay12_apply_r1 x0 x1 s.1 s.1 s.2.2 x2 p e).trans ?_
    refine congrArg₂ (· + ·) ?_ ?_
    · exact congrArg (fun t => t * s.2.2 (ix2 p e)) (pay9_row x0 x1 s.1 p 0)
    · exact Finset.sum_congr rfl fun j _ => congrArg (fun t => t * x2 (ix2 j e)) (pay10_row x0 x1 s.1 p j)

theorem fin1_apply (s : Sc1 (F := Ideal)) (p : Fin 1024) (c : Fin 128) :
    fin1 s (ix2 p c) = Ideal.div (s.2.2 (ix2 p c)) (s.2.1 (ix2 p (0 : Fin 1))) := by
  unfold fin1 k1_pay3
  refine (divf_apply _ _ _).trans ?_
  exact congrArg (Ideal.div (s.2.2 (ix2 p c))) (Cert.LibKeepdims.broadcastTo_a1_ab_apply _ _ p c)

end Cert.KernelIdeal.Val

end
-- ==== Proof.Val1.lean ====
import proofs.«169444_j60773787238589_1_alg».proof.Proof.KI.Outs1
import proofs.«169444_j60773787238589_1_alg».proof.Proof.RowSpec
import proofs.«169444_j60773787238589_1_alg».proof.Proof.Pay1
import proofs.«169444_j60773787238589_1_alg».proof.Proof.LibOnlineSoftmax
import proofs.«169444_j60773787238589_1_alg».proof.Proof.LibRowFold
import proofs.«169444_j60773787238589_1_alg».proof.Proof.LibKeepdims
import proofs.«169444_j60773787238589_1_alg».proof.Proof.LibSoftmaxRows
import proofs.«169444_j60773787238589_1_alg».proof.Proof.LibContract
import proofs.«169444_j60773787238589_1_alg».proof.Proof.LibFoldMax
import proofs.«169444_j60773787238589_1_alg».proof.Proof.LibTiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

abbrev XA1 (c : Dev nD) : RowSpec.X := V c main_arg0
abbrev HA1 (c : Dev nD) : RowSpec.H := V c main_v0

theorem seven_lt1 : 7 < 8 := by decide

abbrev pt1 (qi : Fin 8) (kv : ℕ) (hkv : kv < 8) : Fin cfg1.N :=
  ⟨8 * qi.val + kv, by have := qi.isLt; have : cfg1.N = 64 := N_1; omega⟩

theorem qb1_apply (c : Dev nD) (qi : Fin 8) (kv : ℕ) (hkv : kv < 8) (p : Fin 1024) (d : Fin 256) :
    qb1 V c (pt1 qi kv hkv) (ix2 p d) = XA1 V c (ix2 (RowSpec.key qi p) d) := by
  obtain ⟨e0, e1, -⟩ := idx_facts1 (pt1 qi kv hkv)
  have hq := qi.isLt
  show V c main_arg0 (((cfg1.win 0).blk (pt1 qi kv hkv)).view.emb (ix2 p d)) = _
  refine congrArg (V c main_arg0) ?_
  funext a; apply Fin.ext
  match a with
  | ⟨0, _⟩ => show win1_0.index (pt1 qi kv hkv) (0 : Fin 2) * 1024 + 1 * p.val = qi.val * 1024 + p.val
              rw [e0]; show (8 * qi.val + kv) / 8 * 1024 + 1 * p.val = _; omega
  | ⟨1, _⟩ => show win1_0.index (pt1 qi kv hkv) (1 : Fin 2) * 256 + 1 * d.val = d.val; omega

theorem kb1_apply (c : Dev nD) (qi : Fin 8) (kv : ℕ) (hkv : kv < 8) (j : Fin 1024) (d : Fin 256) :
    kb1 V c (pt1 qi kv hkv) (ix2 j d) = XA1 V c (ix2 (RowSpec.key ⟨kv, hkv⟩ j) d) := by
  obtain ⟨-, -, e0, e1, -⟩ := idx_facts1 (pt1 qi kv hkv)
  have hq := qi.isLt
  show V c main_arg0 (((cfg1.win 1).blk (pt1 qi kv hkv)).view.emb (ix2 j d)) = _
  refine congrArg (V c main_arg0) ?_
  funext a; apply Fin.ext
  match a with
  | ⟨0, _⟩ => show win1_1.index (pt1 qi kv hkv) (0 : Fin 2) * 1024 + 1 * j.val = kv * 1024 + j.val
              rw [e0]; show (8 * qi.val + kv) % 8 * 1024 + 1 * j.val = _; omega
  | ⟨1, _⟩ => show win1_1.index (pt1 qi kv hkv) (1 : Fin 2) * 256 + 1 * d.val = d.val; omega

theorem vb1_apply (c : Dev nD) (qi : Fin 8) (kv : ℕ) (hkv : kv < 8) (j : Fin 1024) (e : Fin 128) :
    vb1 V c (pt1 qi kv hkv) (ix2 j e) = HA1 V c (ix2 (RowSpec.key ⟨kv, hkv⟩ j) e) := by
  obtain ⟨-, -, -, -, e0, e1, -⟩ := idx_facts1 (pt1 qi kv hkv)
  have hq := qi.isLt
  show V c main_v0 (((cfg1.win 2).blk (pt1 qi kv hkv)).view.emb (ix2 j e)) = _
  refine congrArg (V c main_v0) ?_
  funext a; apply Fin.ext
  match a with
  | ⟨0, _⟩ => show win1_2.index (pt1 qi kv hkv) (0 : Fin 2) * 1024 + 1 * j.val = kv * 1024 + j.val
              rw [e0]; show (8 * qi.val + kv) % 8 * 1024 + 1 * j.val = _; omega
  | ⟨1, _⟩ => show win1_2.index (pt1 qi kv hkv) (1 : Fin 2) * 128 + 1 * e.val = e.val; omega

theorem scAt1_congr (c : Dev nD) (n m : ℕ) (hn : n < cfg1.N) (hm : m < cfg1.N) (h : n = m) :
    scAt1 (F := Ideal) V c n hn = scAt1 V c m hm := by subst h; rfl

theorem step_at1 (c : Dev nD) (qi : Fin 8) (kv : ℕ) (hkv : kv < 8) (s : Sc1 (F := Ideal)) (p : Fin 1024) (e : Fin 128) :
    rowOf1 (step1 (qb1 V c (pt1 qi kv hkv)) (kb1 V c (pt1 qi kv hkv)) (vb1 V c (pt1 qi kv hkv)) s) p e
      = Spec.upd (rowOf1 s p e) (RowSpec.score (XA1 V c) (RowSpec.key qi p) ⟨kv, hkv⟩) (RowSpec.hcol (HA1 V c) e ⟨kv, hkv⟩) := by
  refine (step1_row _ _ _ s p e).trans ?_
  have hs : (fun j : Fin 1024 => ∑ d : Fin 256, qb1 V c (pt1 qi kv hkv) (ix2 p d) * kb1 V c (pt1 qi kv hkv) (ix2 j d))
      = RowSpec.score (XA1 V c) (RowSpec.key qi p) ⟨kv, hkv⟩ := by
    funext j
    show _ = ∑ d : Fin 256, XA1 V c (ix2 (RowSpec.key qi p) d) * XA1 V c (ix2 (RowSpec.key ⟨kv, hkv⟩ j) d)
    refine Finset.sum_congr rfl fun d _ => ?_
    rw [qb1_apply, kb1_apply]
  have hv : (fun j : Fin 1024 => vb1 V c (pt1 qi kv hkv) (ix2 j e)) = RowSpec.hcol (HA1 V c) e ⟨kv, hkv⟩ := by
    funext j
    exact vb1_apply V c qi kv hkv j e
  rw [hs, hv]

theorem row_run1 (c : Dev nD) (qi : Fin 8) (p : Fin 1024) (e : Fin 128) : ∀ (kv : ℕ) (hkv : kv < 8),
    rowOf1 (scAt1 V c (pt1 qi kv hkv).val (pt1 qi kv hkv).isLt) p e
      = Spec.run (RowSpec.score (XA1 V c) (RowSpec.key qi p)) (RowSpec.hcol (HA1 V c) e) (kv + 1)
  | 0, hkv => by
    rw [scAt1_reset V c (pt1 qi 0 hkv) (by show (8 * qi.val + 0) % 8 = 0; omega), step_at1, init1_row,
      Spec.run_succ _ _ 0 hkv, Spec.run_zero]
  | kv + 1, hkv => by
    have ih := row_run1 c qi p e kv (by omega)
    rw [scAt1_step V c (pt1 qi (kv + 1) hkv) (by show ¬ (8 * qi.val + (kv + 1)) % 8 = 0; omega), step_at1,
      scAt1_congr V c ((pt1 qi (kv + 1) hkv).val - 1) (pt1 qi kv (by omega)).val _ (pt1 qi kv (by omega)).isLt
        (by show 8 * qi.val + (kv + 1) - 1 = 8 * qi.val + kv; omega),
      ih, Spec.run_succ _ _ (kv + 1) hkv]

theorem after_pt1 (c : Dev nD) (qi : Fin 8) (p : Fin 1024) (cc : Fin 128) :
    (dat1 (F := Ideal) V c).after 3 (pt1 qi 7 seven_lt1) (ix2 p cc)
      = RowSpec.adjhK (XA1 V c) (HA1 V c) (ix2 (RowSpec.key qi p) cc) := by
  rw [after1_3, fin1_apply]
  have h := row_run1 V c qi p cc 7 seven_lt1
  have h1 : (scAt1 V c (pt1 qi 7 seven_lt1).val (pt1 qi 7 seven_lt1).isLt).2.2 (ix2 p cc)
      = (Spec.run (RowSpec.score (XA1 V c) (RowSpec.key qi p)) (RowSpec.hcol (HA1 V c) cc) 8).2.2 := congrArg (fun z => z.2.2) h
  have h2 : (scAt1 V c (pt1 qi 7 seven_lt1).val (pt1 qi 7 seven_lt1).isLt).2.1 (ix2 p (0 : Fin 1))
      = (Spec.run (RowSpec.score (XA1 V c) (RowSpec.key qi p)) (RowSpec.hcol (HA1 V c) cc) 8).2.1 := congrArg (fun z => z.2.1) h
  rw [h1, h2]
  rfl

theorem flushed_eq1 (c : Dev nD) (t : Fin cfg1.N) (hf : (cfg1.win 3).flush t = true) :
    (dat1 (F := Ideal) V c).flushed 3 t
      = ((cfg1.win 3).blk t).view.read (Elt Ideal) (RowSpec.adjhK (XA1 V c) (HA1 V c)) := by
  have h7 : t.val % 8 = 7 := (flush1_3 t).mp hf
  have hN : t.val < 64 := lt_of_lt_of_eq t.isLt N_1
  obtain ⟨qi, rfl⟩ : ∃ qi : Fin 8, t = pt1 qi 7 seven_lt1 :=
    ⟨⟨t.val / 8, by omega⟩, Fin.ext (by show t.val = 8 * (t.val / 8) + 7; omega)⟩
  obtain ⟨-, -, -, -, -, -, e0, e1⟩ := idx_facts1 (pt1 qi 7 seven_lt1)
  have hq := qi.isLt
  funext j
  obtain ⟨p, cc, rfl⟩ : ∃ (p : Fin 1024) (cc : Fin 128), j = ix2 p cc := ⟨j 0, j 1, eq_ix2 j⟩
  have hx : (cfg1.win 3).xinj (cfg1.grid.coords (pt1 qi 7 seven_lt1)) (ix2 p cc) = ix2 p cc := by
    funext a; match a with | ⟨0, _⟩ => rfl | ⟨1, _⟩ => rfl
  show (dat1 (F := Ideal) V c).after 3 (pt1 qi 7 seven_lt1) ((cfg1.win 3).xinj (cfg1.grid.coords (pt1 qi 7 seven_lt1)) (ix2 p cc))
    = RowSpec.adjhK (XA1 V c) (HA1 V c) (((cfg1.win 3).blk (pt1 qi 7 seven_lt1)).view.emb (ix2 p cc))
  rw [hx, after_pt1]
  refine congrArg (RowSpec.adjhK (XA1 V c) (HA1 V c)) ?_
  funext a; apply Fin.ext
  match a with
  | ⟨0, _⟩ => show qi.val * 1024 + p.val = win1_3.index (pt1 qi 7 seven_lt1) (0 : Fin 2) * 1024 + 1 * p.val
              rw [e0]; show _ = (8 * qi.val + 7) / 8 * 1024 + 1 * p.val; omega
  | ⟨1, _⟩ => show cc.val = win1_3.index (pt1 qi 7 seven_lt1) (1 : Fin 2) * 128 + 1 * cc.val; omega

theorem mem_blk1 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v1).slice (win1_3.rect t)).set ↔ _
  rw [View.set_slice_whole, Rect.mem_set_unit]
  exact Iff.rfl

theorem cover1 (i : S8192x128.Idx) :
    ∃ t : Fin cfg1.N, (cfg1.win 3).flush t = true ∧ i ∈ ((cfg1.win 3).blk t).view.set := by
  have h0 : (i 0).val < 8192 := (i 0).isLt
  have h1 : (i 1).val < 128 := (i 1).isLt
  have hk : (i 0).val / 1024 < 8 := by omega
  obtain ⟨-, -, -, -, -, -, e0, e1⟩ := idx_facts1 (pt1 ⟨(i 0).val / 1024, hk⟩ 7 seven_lt1)
  refine ⟨pt1 ⟨(i 0).val / 1024, hk⟩ 7 seven_lt1, (flush1_3 _).mpr (by show (8 * ((i 0).val / 1024) + 7) % 8 = 7; omega), ?_⟩
  rw [mem_blk1]
  intro a
  match a with
  | ⟨0, _⟩ => show win1_3.index (pt1 ⟨(i 0).val / 1024, hk⟩ 7 seven_lt1) (0 : Fin 2) * 1024 ≤ (i 0).val
                ∧ (i 0).val < win1_3.index (pt1 ⟨(i 0).val / 1024, hk⟩ 7 seven_lt1) (0 : Fin 2) * 1024 + 1024
              rw [e0]; show (8 * ((i 0).val / 1024) + 7) / 8 * 1024 ≤ (i 0).val ∧ (i 0).val < (8 * ((i 0).val / 1024) + 7) / 8 * 1024 + 1024
              omega
  | ⟨1, _⟩ => show win1_3.index (pt1 ⟨(i 0).val / 1024, hk⟩ 7 seven_lt1) (1 : Fin 2) * 128 ≤ (i 1).val
                ∧ (i 1).val < win1_3.index (pt1 ⟨(i 0).val / 1024, hk⟩ 7 seven_lt1) (1 : Fin 2) * 128 + 128
              rw [e1]; omega

/-- Likewise the second pass's output array holds the quotients against the hidden array it reads. -/
theorem arrAt1 (c : Dev nD) :
    ((dat1 (F := Ideal) V c).arrAt 3 cfg1.N : S8192x128.Idx → EReal) = RowSpec.adjhK (V c main_arg0) (V c main_v0) :=
  (dat1 (F := Ideal) V c).arrAt_eq_of_cover 3 (RowSpec.adjhK (XA1 V c) (HA1 V c)) (flushed_eq1 V c) cover1

end Cert.KernelIdeal.Val

end
-- ==== Proof.RealDef.lean ====
import Idealize.ShloMosaic.PureOps.Ideal

noncomputable section

namespace Cert.Bridge

open Idealize.ShloMosaic

def IsReal {S : Shape} (f : S.Idx → EReal) : Prop := ∀ i, ∃ r : ℝ, f i = (r : EReal)

end Cert.Bridge

end
-- ==== Proof.Bridge.lean ====
import proofs.«169444_j60773787238589_1_alg».proof.Proof.LibOnlineSoftmax
import proofs.«169444_j60773787238589_1_alg».proof.Proof.RowSpec
import proofs.«169444_j60773787238589_1_alg».proof.Proof.RealDef

noncomputable section

namespace Cert.Bridge

open Idealize.ShloMosaic Idealize.ShloMosaic.ValueIdx Cert.RowSpec

theorem sum_mul_real {ι : Type*} (t : Finset ι) (f g : ι → EReal) (hf : ∀ i, ∃ r : ℝ, f i = (r : EReal))
    (hg : ∀ i, ∃ r : ℝ, g i = (r : EReal)) : ∃ r : ℝ, ∑ i ∈ t, f i * g i = (r : EReal) := by
  choose fr hfr using hf
  choose gr hgr using hg
  refine ⟨∑ i ∈ t, fr i * gr i, ?_⟩
  rw [Spec.coe_sum]
  refine Finset.sum_congr rfl (fun i _ => ?_)
  rw [EReal.coe_mul, hfr i, hgr i]

theorem online_of_real {T B : ℕ} (hT : 0 < T) (hB : 0 < B) (s v : Fin T → Fin B → EReal)
    (hs : ∀ k j, ∃ r : ℝ, s k j = (r : EReal)) (hv : ∀ k j, ∃ r : ℝ, v k j = (r : EReal)) :
    Ideal.div (Spec.run s v T).2.2 (Spec.run s v T).2.1 = ∑ k : Fin T, ∑ j : Fin B, Spec.wt s k j * v k j := by
  choose sr hsr using hs
  choose vr hvr using hv
  have es : s = fun k j => ((sr k j : ℝ) : EReal) := funext fun k => funext fun j => hsr k j
  have ev : v = fun k j => ((vr k j : ℝ) : EReal) := funext fun k => funext fun j => hvr k j
  rw [es, ev]
  exact Spec.online_eq hT hB sr vr

theorem wsum_of_real {T B : ℕ} (hT : 0 < T) (hB : 0 < B) (s v : Fin T → Fin B → EReal)
    (hs : ∀ k j, ∃ r : ℝ, s k j = (r : EReal)) (hv : ∀ k j, ∃ r : ℝ, v k j = (r : EReal)) :
    ∃ r : ℝ, (∑ k : Fin T, ∑ j : Fin B, Spec.wt s k j * v k j) = (r : EReal) := by
  choose sr hsr using hs
  choose vr hvr using hv
  have es : s = fun k j => ((sr k j : ℝ) : EReal) := funext fun k => funext fun j => hsr k j
  have ev : v = fun k j => ((vr k j : ℝ) : EReal) := funext fun k => funext fun j => hvr k j
  rw [es, ev]
  exact Spec.wsum_real hT hB sr vr

theorem score_real (x : X) (hx : IsReal x) (r : Fin 8192) (k : Fin 8) (j : Fin 1024) : ∃ s : ℝ, score x r k j = (s : EReal) := by
  show ∃ s : ℝ, ∑ d : Fin 256, x (ix2 r d) * x (ix2 (key k j) d) = (s : EReal)
  exact sum_mul_real Finset.univ (fun d => x (ix2 r d)) (fun d => x (ix2 (key k j) d)) (fun d => hx _) (fun d => hx _)

theorem adjxK_eq (x : X) (hx : IsReal x) (r : Fin 8192) (e : Fin 256) : adjxK x r e = adjx x r e := by
  show Ideal.div (Spec.run (score x r) (xcol x e) 8).2.2 (Spec.run (score x r) (xcol x e) 8).2.1
      = ∑ k : Fin 8, ∑ j : Fin 1024, Spec.wt (score x r) k j * xcol x e k j
  exact online_of_real (by norm_num) (by norm_num) (score x r) (xcol x e) (fun k j => score_real x hx r k j)
    (fun k j => hx (ix2 (key k j) e))

theorem hidK_eq (x : X) (g1 : G1) (hx : IsReal x) : hidK x g1 = hid x g1 := by
  funext i
  show max (∑ e : Fin 256, adjxK x ⟨(i 0).val, (i 0).isLt⟩ e * g1 (ix2 e ⟨(i 1).val, (i 1).isLt⟩)) 0
      = max (∑ e : Fin 256, adjx x ⟨(i 0).val, (i 0).isLt⟩ e * g1 (ix2 e ⟨(i 1).val, (i 1).isLt⟩)) 0
  congr 1
  exact Finset.sum_congr rfl (fun e _ => by rw [adjxK_eq x hx])

theorem adjx_real (x : X) (hx : IsReal x) (r : Fin 8192) (e : Fin 256) : ∃ a : ℝ, adjx x r e = (a : EReal) := by
  show ∃ a : ℝ, (∑ k : Fin 8, ∑ j : Fin 1024, Spec.wt (score x r) k j * xcol x e k j) = (a : EReal)
  exact wsum_of_real (by norm_num) (by norm_num) (score x r) (xcol x e) (fun k j => score_real x hx r k j)
    (fun k j => hx (ix2 (key k j) e))

theorem hid_real (x : X) (g1 : G1) (hx : IsReal x) (hg : IsReal g1) : IsReal (hid x g1) := by
  intro i
  show ∃ r : ℝ, max (∑ e : Fin 256, adjx x ⟨(i 0).val, (i 0).isLt⟩ e * g1 (ix2 e ⟨(i 1).val, (i 1).isLt⟩)) 0 = (r : EReal)
  obtain ⟨a, ha⟩ := sum_mul_real Finset.univ (fun e : Fin 256 => adjx x ⟨(i 0).val, (i 0).isLt⟩ e)
    (fun e : Fin 256 => g1 (ix2 e ⟨(i 1).val, (i 1).isLt⟩)) (fun e => adjx_real x hx _ e) (fun e => hg _)
  exact ⟨max a 0, by rw [ha, Spec.coe_max, EReal.coe_zero]⟩

theorem adjhK_eq (x : X) (h : H) (hx : IsReal x) (hh : IsReal h) (r : Fin 8192) (c : Fin 128) :
    adjhK x h (ix2 r c) = adjh x h r c := by
  show Ideal.div (Spec.run (score x r) (hcol h c) 8).2.2 (Spec.run (score x r) (hcol h c) 8).2.1
      = ∑ k : Fin 8, ∑ j : Fin 1024, Spec.wt (score x r) k j * hcol h c k j
  exact online_of_real (by norm_num) (by norm_num) (score x r) (hcol h c) (fun k j => score_real x hx r k j)
    (fun k j => hh (ix2 (key k j) c))

/-- For real x and g1 the two arrangements agree; the hidden array is then real too, which the second pass needs. -/
theorem outK_eq (x : X) (g1 : G1) (g2 : G2) (hx : IsReal x) (hg : IsReal g1) : outK x g1 g2 = out x g1 g2 := by
  funext i
  show ∑ c : Fin 128, adjhK x (hidK x g1) (ix2 ⟨(i 0).val, (i 0).isLt⟩ c) * g2 (ix2 c ⟨(i 1).val, (i 1).isLt⟩)
      = ∑ c : Fin 128, adjh x (hid x g1) ⟨(i 0).val, (i 0).isLt⟩ c * g2 (ix2 c ⟨(i 1).val, (i 1).isLt⟩)
  rw [hidK_eq x g1 hx]
  exact Finset.sum_congr rfl (fun c _ => by rw [adjhK_eq x (hid x g1) hx (hid_real x g1 hx hg)])

end Cert.Bridge

end
-- ==== Proof.KValue.lean ====
import proofs.«169444_j60773787238589_1_alg».proof.Proof.KI.Main
import proofs.«169444_j60773787238589_1_alg».proof.Proof.Val0
import proofs.«169444_j60773787238589_1_alg».proof.Proof.Val1
import proofs.«169444_j60773787238589_1_alg».proof.Proof.Bridge
import proofs.«169444_j60773787238589_1_alg».proof.Proof.LibContract

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

theorem o1_eq (c : Dev nD) :
    (o1 m c : S8192x128.Idx → EReal) = RowSpec.hidK (m ((c : Thread nD τ).loc main_arg0)) (m ((c : Thread nD τ).loc main_arg2)) :=
  arrAt0 (Ve0 m) c

theorem o2_eq (c : Dev nD) :
    (o2 m c : S8192x128.Idx → EReal)
      = RowSpec.adjhK (m ((c : Thread nD τ).loc main_arg0)) (RowSpec.hidK (m ((c : Thread nD τ).loc main_arg0)) (m ((c : Thread nD τ).loc main_arg2))) := by
  have e0 : Ve1 m c main_arg0 = m ((c : Thread nD τ).loc main_arg0) := by
    show W1 m c (Proc.devRef .tc main_arg0) = _
    unfold W1
    rw [Function.update_of_ne (StableHlo.devRef_ne_of_ne (by decide : main_arg0 ≠ main_v0))]
  have e1 : (Ve1 m c main_v0 : S8192x128.Idx → EReal) = RowSpec.hidK (m ((c : Thread nD τ).loc main_arg0)) (m ((c : Thread nD τ).loc main_arg2)) := by
    show (W1 m c (Proc.devRef .tc main_v0) : S8192x128.Idx → EReal) = _
    unfold W1
    rw [Function.update_self]
    exact o1_eq m c
  refine (arrAt1 (Ve1 m) c).trans ?_
  rw [e0, e1]

/-- The kernel's result: the first pass leaves the hidden array, the second the quotients against it, the last contraction is with g2. -/
theorem kernel_result (c : Dev nD)
    (hx : Cert.Bridge.IsReal (S := ⟨2, ![8192, 256]⟩) (m ((c : Thread nD τ).loc main_arg0)))
    (hg : Cert.Bridge.IsReal (S := ⟨2, ![256, 128]⟩) (m ((c : Thread nD τ).loc main_arg2))) :
    (Host.dotGeneral (F := Ideal) (φ₁ := .f32) (φ₂ := .f32) dot_S8192x128_S128x2_S8192x2_1_0_0_1_n_n none (o2 m c) (m ((c : Thread nD τ).loc main_arg3)) : S8192x2.Idx → EReal)
      = RowSpec.out (m ((c : Thread nD τ).loc main_arg0)) (m ((c : Thread nD τ).loc main_arg2)) (m ((c : Thread nD τ).loc main_arg3)) := by
  refine Eq.trans ?_ (Cert.Bridge.outK_eq _ _ _ hx hg)
  funext i
  obtain ⟨r, o, rfl⟩ : ∃ (r : Fin 8192) (o : Fin 2), i = ix2 r o := ⟨i 0, i 1, eq_ix2 i⟩
  refine (Cert.LibDense.dotGeneral_plain_apply 8192 128 2 none (o2 m c) (m ((c : Thread nD τ).loc main_arg3)) r o).trans ?_
  unfold RowSpec.outK
  refine Finset.sum_congr rfl fun cc _ => ?_
  exact congrArg (fun t => t * m ((c : Thread nD τ).loc main_arg3) (ix2 cc o)) (congrFun (o2_eq m c) (ix2 r cc))

end Cert.KernelIdeal.Val

end
-- ==== Proof.RefVal.lean ====
import proofs.«169444_j60773787238589_1_alg».proof.Proof.Gen.ReferenceIdeal.Read
import proofs.«169444_j60773787238589_1_alg».proof.Proof.RowSpec
import proofs.«169444_j60773787238589_1_alg».proof.Proof.LibRowFold
import proofs.«169444_j60773787238589_1_alg».proof.Proof.LibKeepdims
import proofs.«169444_j60773787238589_1_alg».proof.Proof.LibSoftmaxRows
import proofs.«169444_j60773787238589_1_alg».proof.Proof.LibContract
import proofs.«169444_j60773787238589_1_alg».proof.Proof.LibFoldMax
import proofs.«169444_j60773787238589_1_alg».proof.Proof.LibTiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen

def sc (x : RowSpec.X) (r c : Fin 8192) : EReal := ∑ d : Fin 256, x (ix2 r d) * x (ix2 c d)

theorem ninf_eq : Ideal.ofBits .f32 0xFF800000#32 = (⊥ : EReal) := by simp [Ideal.ofBits, Ideal.ieee]

theorem key_div_mod (c : Fin 8192) :
    RowSpec.key ⟨c.val / 1024, by have := c.isLt; omega⟩ ⟨c.val % 1024, Nat.mod_lt _ (by decide)⟩ = c :=
  Fin.ext (by show c.val / 1024 * 1024 + c.val % 1024 = c.val; omega)

theorem sum_keys (f : Fin 8192 → EReal) : ∑ c : Fin 8192, f c = ∑ k : Fin 8, ∑ j : Fin 1024, f (RowSpec.key k j) :=
  Cert.LibTiles.tile_sum 8 1024 f

theorem max_keys (f : Fin 8192 → EReal) :
    (Finset.univ : Finset (Fin 8192)).fold max ⊥ f
      = (Finset.univ : Finset (Fin 8 × Fin 1024)).fold max ⊥ (fun kj => f (RowSpec.key kj.1 kj.2)) :=
  Cert.LibFoldMax.foldMax_eq_of_range _ _ _ _ _
    (fun c _ => ⟨(⟨c.val / 1024, by have := c.isLt; omega⟩, ⟨c.val % 1024, Nat.mod_lt _ (by decide)⟩), Finset.mem_univ _,
      congrArg f (key_div_mod c).symm⟩)
    (fun kj _ => ⟨RowSpec.key kj.1 kj.2, Finset.mem_univ _, rfl⟩)

theorem v1_at (x0 : (⟨S8192x256, .f32⟩ : BufTy).Contents (Elt Ideal)) (r c : Fin 8192) :
    Read.val_main_v1 (F := Ideal) x0 (ix2 r c) = sc x0 r c := by
  rw [Read.val_main_v1_apply]
  refine Finset.sum_congr rfl fun d _ => ?_
  rw [Read.val_main_v0_apply]
  have e1 : Read.lidx_main_v1 (ix2 r c) d = ix2 r d :=
    funext fun a => Fin.ext (by match a with | ⟨0, _⟩ => rfl | ⟨1, _⟩ => rfl)
  have e2 : Read.idx_main_v0 (Read.ridx_main_v1 (ix2 r c) d) = ix2 c d :=
    funext fun a => Fin.ext (by match a with | ⟨0, _⟩ => rfl | ⟨1, _⟩ => rfl)
  exact congrArg₂ (· * ·) (congrArg x0 e1) (congrArg x0 e2)

theorem v4_at (x0 : (⟨S8192x256, .f32⟩ : BufTy).Contents (Elt Ideal)) (r : Fin 8192) :
    Read.val_main_v4 (F := Ideal) x0 (ix1 r) = Spec.rowMax (RowSpec.score x0 r) := by
  rw [Read.val_main_v4_apply, Read.val_main_v3_apply, Read.val_main_cst_0_apply]
  unfold Read.val_main_v2
  rw [Cert.LibSoftmaxRows.hostRowMax_apply (Read.val_main_v1 (F := Ideal) x0) (Read.val_main_cst (F := Ideal))
    reducesTo_S8192x8192_S8192_d1 (by decide) h_S_ r, Read.val_main_cst_apply]
  simp only [Ideal.ofBits_def, Ideal.maximumf_def, ninf_eq, v1_at]
  rw [max_bot_left, max_keys]
  rfl

theorem v8_at (x0 : (⟨S8192x256, .f32⟩ : BufTy).Contents (Elt Ideal)) (r c : Fin 8192) :
    Read.val_main_v8 (F := Ideal) x0 (ix2 r c) = Ideal.exp (sc x0 r c - Spec.rowMax (RowSpec.score x0 r)) := by
  rw [Read.val_main_v8_apply, Read.val_main_v7_apply, Read.val_main_v6_apply, Read.val_main_v5_apply, v1_at]
  have e : Read.idx_main_v5 (Read.idx_main_v6 (ix2 r c)) = ix1 r :=
    funext fun a => Fin.ext (by match a with | ⟨0, _⟩ => rfl)
  rw [e, v4_at]
  rfl

theorem v9_at (x0 : (⟨S8192x256, .f32⟩ : BufTy).Contents (Elt Ideal)) (r : Fin 8192) :
    Read.val_main_v9 (F := Ideal) x0 (ix1 r) = Spec.rowDen (RowSpec.score x0 r) := by
  rw [Read.val_main_v9_apply, Read.val_main_cst_1_apply]
  have e : ∀ c : Fin 8192, Read.idx_main_v9 (ix1 r) c = ix2 r c := fun c =>
    funext fun a => Fin.ext (by match a with | ⟨0, _⟩ => rfl | ⟨1, _⟩ => rfl)
  simp only [e, v8_at, Ideal.ofBits_def, Ideal.ofBits_zero_f32, zero_add]
  rw [sum_keys]
  rfl

theorem v12_at (x0 : (⟨S8192x256, .f32⟩ : BufTy).Contents (Elt Ideal)) (r : Fin 8192) (k : Fin 8) (j : Fin 1024) :
    Read.val_main_v12 (F := Ideal) x0 (ix2 r (RowSpec.key k j)) = Spec.wt (RowSpec.score x0 r) k j := by
  rw [Read.val_main_v12_apply, Read.val_main_v11_apply, Read.val_main_v10_apply, v8_at]
  have e : Read.idx_main_v10 (Read.idx_main_v11 (ix2 r (RowSpec.key k j))) = ix1 r :=
    funext fun a => Fin.ext (by match a with | ⟨0, _⟩ => rfl)
  rw [e, v9_at]
  rfl

theorem v13_at (x0 : (⟨S8192x256, .f32⟩ : BufTy).Contents (Elt Ideal)) (r : Fin 8192) (e : Fin 256) :
    Read.val_main_v13 (F := Ideal) x0 (ix2 r e) = RowSpec.adjx x0 r e := by
  rw [Read.val_main_v13_apply]
  have el : ∀ c : Fin 8192, Read.lidx_main_v13 (ix2 r e) c = ix2 r c := fun c =>
    funext fun a => Fin.ext (by match a with | ⟨0, _⟩ => rfl | ⟨1, _⟩ => rfl)
  have er : ∀ c : Fin 8192, Read.ridx_main_v13 (ix2 r e) c = ix2 c e := fun c =>
    funext fun a => Fin.ext (by match a with | ⟨0, _⟩ => rfl | ⟨1, _⟩ => rfl)
  simp only [el, er]
  rw [sum_keys]
  refine Finset.sum_congr rfl fun k _ => Finset.sum_congr rfl fun j _ => ?_
  rw [v12_at]
  rfl

theorem v15_eq (x0 : (⟨S8192x256, .f32⟩ : BufTy).Contents (Elt Ideal)) (x2 : (⟨S256x128, .f32⟩ : BufTy).Contents (Elt Ideal)) :
    Read.val_main_v15 (F := Ideal) x0 x2 = RowSpec.hid x0 x2 := by
  funext i
  obtain ⟨r, c, rfl⟩ : ∃ (r : Fin 8192) (c : Fin 128), i = ix2 r c := ⟨i 0, i 1, eq_ix2 i⟩
  rw [Read.val_main_v15_apply, Read.val_main_v14_apply, Read.val_main_call0_v0_apply, Read.val_main_call0_cst_apply]
  have el : ∀ e : Fin 256, Read.lidx_main_v14 (ix2 r c) e = ix2 r e := fun e =>
    funext fun a => Fin.ext (by match a with | ⟨0, _⟩ => rfl | ⟨1, _⟩ => rfl)
  have er : ∀ e : Fin 256, Read.ridx_main_v14 (ix2 r c) e = ix2 e c := fun e =>
    funext fun a => Fin.ext (by match a with | ⟨0, _⟩ => rfl | ⟨1, _⟩ => rfl)
  simp only [el, er, v13_at, Ideal.ofBits_def, Ideal.ofBits_zero_f32, Ideal.maximumf_def]
  rfl

theorem v16_at (x0 : (⟨S8192x256, .f32⟩ : BufTy).Contents (Elt Ideal)) (x2 : (⟨S256x128, .f32⟩ : BufTy).Contents (Elt Ideal))
    (r : Fin 8192) (c : Fin 128) :
    Read.val_main_v16 (F := Ideal) x0 x2 (ix2 r c) = RowSpec.adjh x0 (RowSpec.hid x0 x2) r c := by
  rw [Read.val_main_v16_apply, v15_eq]
  have el : ∀ q : Fin 8192, Read.lidx_main_v16 (ix2 r c) q = ix2 r q := fun q =>
    funext fun a => Fin.ext (by match a with | ⟨0, _⟩ => rfl | ⟨1, _⟩ => rfl)
  have er : ∀ q : Fin 8192, Read.ridx_main_v16 (ix2 r c) q = ix2 q c := fun q =>
    funext fun a => Fin.ext (by match a with | ⟨0, _⟩ => rfl | ⟨1, _⟩ => rfl)
  simp only [el, er]
  rw [sum_keys]
  refine Finset.sum_congr rfl fun k _ => Finset.sum_congr rfl fun j _ => ?_
  rw [v12_at]
  rfl

/-- The reference's operations read one at a time, its key axis regrouped into 8 tiles of 1024, give the row-by-row result. -/
theorem ref_value (x0 : (⟨S8192x256, .f32⟩ : BufTy).Contents (Elt Ideal)) (x2 : (⟨S256x128, .f32⟩ : BufTy).Contents (Elt Ideal))
    (x3 : (⟨S128x2, .f32⟩ : BufTy).Contents (Elt Ideal)) :
    (Cert.ReferenceIdeal.Read.val_main_v17 (F := Ideal) x0 x2 x3 : S8192x2.Idx → EReal) = RowSpec.out x0 x2 x3 := by
  funext i
  obtain ⟨r, o, rfl⟩ : ∃ (r : Fin 8192) (o : Fin 2), i = ix2 r o := ⟨i 0, i 1, eq_ix2 i⟩
  rw [Read.val_main_v17_apply]
  have el : ∀ c : Fin 128, Read.lidx_main_v17 (ix2 r o) c = ix2 r c := fun c =>
    funext fun a => Fin.ext (by match a with | ⟨0, _⟩ => rfl | ⟨1, _⟩ => rfl)
  have er : ∀ c : Fin 128, Read.ridx_main_v17 (ix2 r o) c = ix2 c o := fun c =>
    funext fun a => Fin.ext (by match a with | ⟨0, _⟩ => rfl | ⟨1, _⟩ => rfl)
  simp only [el, er, v16_at]
  rfl

end Cert.ReferenceIdeal.RefValue

end
-- ==== Proof.Finite.lean ====
import proofs.«169444_j60773787238589_1_alg».proof.Proof.Gen.Pre_finite_inputs
import proofs.«169444_j60773787238589_1_alg».proof.Proof.RealDef
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

instance subsingleton_scalar_idx : Subsingleton (⟨0, ![]⟩ : Shape).Idx :=
  ⟨fun _ _ => funext fun d => d.elim0⟩

theorem inf_word : Ideal.ofBits .f32 0x7F800000#32 = ⊤ := by simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

theorem real_of_entry {T : Shape} (hb : (⟨0, ![]⟩ : Shape).BroadcastsInDim T ![]) (a : FVec Ideal T .f32) (i : T.Idx)
    (h : cmpf .olt (Host.absf a) (broadcastInDim T ![] hb (constant (⟨0, ![]⟩ : Shape) .f32 0x7F800000#32)) i = 1#1) :
    ∃ r : ℝ, a i = (r : EReal) := by
  have h' : Ideal.cmp .olt (max (a i) (-(a i))) (Ideal.ofBits .f32 0x7F800000#32) = 1#1 := h
  rw [inf_word] at h'
  exact real_of_abs_lt_top (a i) h'

/-- Under the precondition every entry of x and of g1 is a real: an extended real whose absolute value is below +inf. -/
theorem real_of_pre [hP : Cert.Pre_finite_inputs.Facts]
    (a0 : FVec Ideal Cert.Pre_finite_inputs.S8192x256 .f32) (a1 : FVec Ideal Cert.Pre_finite_inputs.S8192x8192 .f32)
    (a2 : FVec Ideal Cert.Pre_finite_inputs.S256x128 .f32) (a3 : FVec Ideal Cert.Pre_finite_inputs.S128x2 .f32)
    (h : Cert.Pre_finite_inputs.fn (F := Ideal) a0 a1 a2 a3 = (fun _ => 1#1)) :
    Cert.Bridge.IsReal (S := ⟨2, ![8192, 256]⟩) a0 ∧ Cert.Bridge.IsReal (S := ⟨2, ![256, 128]⟩) a2 := by
  have h0 := congrFun h ValueIdx.ix0
  dsimp only [Cert.Pre_finite_inputs.fn, Cert.Pre_finite_inputs.fn_part1] at h0
  obtain ⟨h012, _⟩ := IntOp.andi_eq_one.1 h0
  obtain ⟨h01, hr2⟩ := IntOp.andi_eq_one.1 h012
  obtain ⟨hr0, _⟩ := IntOp.andi_eq_one.1 h01
  refine ⟨fun i => ?_, fun i => ?_⟩
  · exact real_of_entry _ a0 i (Host.reduce_andi_all _ _ _ _ _ hr0 i)
  · exact real_of_entry _ a2 i (Host.reduce_andi_all _ _ _ _ _ hr2 i)

end Cert.Finite

end
-- ==== Proof.lean ====
/-
  Attention in two tiled passes against its reference. The reference forms softmax (x·xᵀ) row by row, then
  hid = max ((softmax·x)·g1) 0 and out = (softmax·hid)·g2. Each kernel pass walks a query tile's 8 key tiles carrying, per
  row, a running maximum, denominator and numerator, both sums rescaled by exp (old maximum - new maximum); after the last
  tile numerator / denominator is the softmax-weighted sum, because for real inputs the denominator is a positive real.
-/
import proofs.«169444_j60773787238589_1_alg».proof.Defs
import proofs.«169444_j60773787238589_1_alg».proof.Proof.Gen.Kernel
import proofs.«169444_j60773787238589_1_alg».proof.Proof.Gen.KernelIdeal
import proofs.«169444_j60773787238589_1_alg».proof.Proof.Gen.ReferenceIdeal
import proofs.«169444_j60773787238589_1_alg».proof.Proof.Gen.Pre_finite_inputs
import proofs.«169444_j60773787238589_1_alg».proof.Proof.Gen.ReferenceIdeal.Run
import proofs.«169444_j60773787238589_1_alg».proof.Proof.Gen.ReferenceIdeal.Read
import proofs.«169444_j60773787238589_1_alg».proof.Proof.KI.Main
import proofs.«169444_j60773787238589_1_alg».proof.Proof.KValue
import proofs.«169444_j60773787238589_1_alg».proof.Proof.RefVal
import proofs.«169444_j60773787238589_1_alg».proof.Proof.Finite
import Idealize.ShloMosaic.Adequacy
import Idealize.ShloMosaic.Init

noncomputable section

namespace Cert.Proof

open Idealize.ShloMosaic Idealize.ShloMosaic.TcCoe Idealize.SL.Sem

variable {F : FTy → Type} [FloatOps F]

/-- The idealization rewrote no operation, so at every float instance the two kernels' body tables agree label by label. -/
theorem defs₀_eq : Cert.Kernel.defs₀ (F := F) = Cert.KernelIdeal.defs₀ (F := F) :=
  congrArg Defs.onTc (funext₂ fun
    | 0, (_, _) => rfl
    | 1, (_, _) => rfl
    | ⟨_ + 2, h⟩, _ => absurd h (Nat.not_lt.2 (Nat.le_add_left _ _)))

theorem defs_eq : Cert.Kernel.defs (F := F) = Cert.KernelIdeal.defs (F := F) :=
  congrArg (Pipeline.defs Cert.KernelIdeal.pcfgs) defs₀_eq

/-- The frame is proved once, for every float instance, so it holds of the kernel as printed too. -/
theorem frame_k : Cert.frame_Kernel := fun m ρ _ =>
  (defs_eq (F := Bits)) ▸ Cert.KernelIdeal.Hand.frame (F := Bits) m ρ

theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the reference's row-by-row result at the kernel's arguments; x and g1 are real by the precondition. -/
theorem algebraic : Cert.algebraic_KernelIdeal_ReferenceIdeal := by
  intro m ρ m' ρ' hpre hagree
  refine ⟨fun c => Cert.RowSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Hand.run_value (F := Ideal) m ρ)
    obtain ⟨hx, hg⟩ := Cert.Finite.real_of_pre _ _ _ _ (hpre c)
    exact Cert.KernelIdeal.Val.kernel_result m c hx hg
  · refine (θ_run Cert.ReferenceIdeal.defs _ _).mono (fun r h c => ⟨(h c).1.trans ?_, (h c).2⟩)
      (Cert.ReferenceIdeal.Value.run (F := Ideal) m' ρ')
    rw [(hagree c).1, (hagree c).2.2.1, (hagree c).2.2.2]
    exact (Cert.ReferenceIdeal.Read.val_main_v17_eq _ _ _).trans (Cert.ReferenceIdeal.RefValue.ref_value _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
